-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg17 main_v48 main_v49 main_v50

def fn_part1 {F : FTy → Type} [FloatOps F] (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S2048x1 : Shape := ⟨2, ![2048, 1]⟩
abbrev S1x32 : Shape := ⟨2, ![1, 32]⟩
abbrev S1x64 : Shape := ⟨2, ![1, 64]⟩
abbrev S10000x32 : Shape := ⟨2, ![10000, 32]⟩
abbrev S10000x1 : Shape := ⟨2, ![10000, 1]⟩
abbrev S1x2048 : Shape := ⟨2, ![1, 2048]⟩
abbrev S64x2048 : Shape := ⟨2, ![64, 2048]⟩
abbrev S1000x2048 : Shape := ⟨2, ![1000, 2048]⟩
abbrev S1000x128 : Shape := ⟨2, ![1000, 128]⟩
abbrev S1000x16 : Shape := ⟨2, ![1000, 16]⟩
abbrev S1000x32 : Shape := ⟨2, ![1000, 32]⟩
abbrev S1000x1 : Shape := ⟨2, ![1000, 1]⟩
abbrev S1x1000 : Shape := ⟨2, ![1, 1000]⟩
abbrev S1000x64 : Shape := ⟨2, ![1000, 64]⟩
abbrev S2000x2048 : Shape := ⟨2, ![2000, 2048]⟩
abbrev S2000x1 : Shape := ⟨2, ![2000, 1]⟩
abbrev S2048x64 : Shape := ⟨2, ![2048, 64]⟩
abbrev S2000x64 : Shape := ⟨2, ![2000, 64]⟩
abbrev S1x2 : Shape := ⟨2, ![1, 2]⟩
abbrev S10000x2 : Shape := ⟨2, ![10000, 2]⟩
abbrev S2000x2 : Shape := ⟨2, ![2000, 2]⟩

abbrev nBuf : Space → Nat
  | .hbm => 35
  | .vmem => 48
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S2048x1, .f32⟩
  | .hbm, ⟨19, _⟩ => ⟨S2048x1, .bf16⟩
  | .hbm, ⟨20, _⟩ => ⟨S1x32, .f32⟩
  | .hbm, ⟨21, _⟩ => ⟨S1x32, .f32⟩
  | .hbm, ⟨22, _⟩ => ⟨S1x64, .f32⟩
  | .hbm, ⟨23, _⟩ => ⟨S1x32, .f32⟩
  | .hbm, ⟨24, _⟩ => ⟨S1x64, .f32⟩
  | .hbm, ⟨25, _⟩ => ⟨S10000x32, .f32⟩
  | .hbm, ⟨26, _⟩ => ⟨S10000x1, .f32⟩
  | .hbm, ⟨27, _⟩ => ⟨S1x2048, .f32⟩
  | .hbm, ⟨28, _⟩ => ⟨S64x2048, .f32⟩
  | .hbm, ⟨29, _⟩ => ⟨S10000x2048, .bf16⟩
  | .hbm, ⟨30, _⟩ => ⟨S1x2048, .f32⟩
  | .hbm, ⟨31, _⟩ => ⟨S1x64, .f32⟩
  | .hbm, ⟨32, _⟩ => ⟨S64x2048, .f32⟩
  | .hbm, ⟨33, _⟩ => ⟨S1x2, .f32⟩
  | .hbm, ⟨34, _⟩ => ⟨S10000x2, .f32⟩
  | .local _ .vmem, ⟨0, _⟩ => ⟨S1000x2048, .f32⟩
  | .local _ .vmem, ⟨1, _⟩ => ⟨S1000x2048, .f32⟩
  | .local _ .vmem, ⟨2, _⟩ => ⟨S1000x128, .f32⟩
  | .local _ .vmem, ⟨3, _⟩ => ⟨S1000x128, .f32⟩
  | .local _ .vmem, ⟨4, _⟩ => ⟨S1000x16, .f32⟩
  | .local _ .vmem, ⟨5, _⟩ => ⟨S1000x16, .f32⟩
  | .local _ .vmem, ⟨6, _⟩ => ⟨S2048x1, .bf16⟩
  | .local _ .vmem, ⟨7, _⟩ => ⟨S128x32, .f32⟩
  | .local _ .vmem, ⟨8, _⟩ => ⟨S1x32, .f32⟩
  | .local _ .vmem, ⟨9, _⟩ => ⟨S16x32, .f32⟩
  | .local _ .vmem, ⟨10, _⟩ => ⟨S1x32, .f32⟩
  | .local _ .vmem, ⟨11, _⟩ => ⟨S64x64, .f32⟩
  | .local _ .vmem, ⟨12, _⟩ => ⟨S1x64, .f32⟩
  | .local _ .vmem, ⟨13, _⟩ => ⟨S64x32, .f32⟩
  | .local _ .vmem, ⟨14, _⟩ => ⟨S1x32, .f32⟩
  | .local _ .vmem, ⟨15, _⟩ => ⟨S32x64, .f32⟩
  | .local _ .vmem, ⟨16, _⟩ => ⟨S1x64, .f32⟩
  | .local _ .vmem, ⟨17, _⟩ => ⟨S1000x32, .f32⟩
  | .local _ .vmem, ⟨18, _⟩ => ⟨S1000x32, .f32⟩
  | .local _ .vmem, ⟨19, _⟩ => ⟨S1000x1, .f32⟩
  | .local _ .vmem, ⟨20, _⟩ => ⟨S1000x1, .f32⟩
  | .local _ .vmem, ⟨21, _⟩ => ⟨S1x2048, .f32⟩
  | .local _ .vmem, ⟨22, _⟩ => ⟨S64x2048, .f32⟩
  | .local _ .vmem, ⟨23, _⟩ => ⟨S1000x2048, .bf16⟩
  | .local _ .vmem, ⟨24, _⟩ => ⟨S1000x2048, .bf16⟩
  | .local _ .vmem, ⟨25, _⟩ => ⟨S2000x2048, .bf16⟩
  | .local _ .vmem, ⟨26, _⟩ => ⟨S2000x2048, .bf16⟩
  | .local _ .vmem, ⟨27, _⟩ => ⟨S2000x1, .f32⟩
  | .local _ .vmem, ⟨28, _⟩ => ⟨S2000x1, .f32⟩
  | .local _ .vmem, ⟨29, _⟩ => ⟨S64x2048, .f32⟩
  | .local _ .vmem, ⟨30, _⟩ => ⟨S1x2048, .f32⟩
  | .local _ .vmem, ⟨31, _⟩ => ⟨S1x2048, .f32⟩
  | .local _ .vmem, ⟨32, _⟩ => ⟨S64x64, .f32⟩
  | .local _ .vmem, ⟨33, _⟩ => ⟨S1x64, .f32⟩
  | .local _ .vmem, ⟨34, _⟩ => ⟨S64x2048, .f32⟩
  | .local _ .vmem, ⟨35, _⟩ => ⟨S2048x64, .bf16⟩
  | .local _ .vmem, ⟨36, _⟩ => ⟨S2000x2048, .bf16⟩
  | .local _ .vmem, ⟨37, _⟩ => ⟨S2000x2048, .bf16⟩
  | .local _ .vmem, ⟨38, _⟩ => ⟨S2000x1, .f32⟩
  | .local _ .vmem, ⟨39, _⟩ => ⟨S2000x1, .f32⟩
  | .local _ .vmem, ⟨40, _⟩ => ⟨S64x2048, .f32⟩
  | .local _ .vmem, ⟨41, _⟩ => ⟨S1x2048, .f32⟩
  | .local _ .vmem, ⟨42, _⟩ => ⟨S1x2048, .f32⟩
  | .local _ .vmem, ⟨43, _⟩ => ⟨S64x2, .f32⟩
  | .local _ .vmem, ⟨44, _⟩ => ⟨S1x2, .f32⟩
  | .local _ .vmem, ⟨45, _⟩ => ⟨S2000x2, .f32⟩
  | .local _ .vmem, ⟨46, _⟩ => ⟨S2000x2, .f32⟩
  | .local _ .vmem, ⟨47, _⟩ => ⟨S2048x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev main_v7_3 : Ref sig .tc := ⟨.hbm, 28, rfl⟩
abbrev main_v7_4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_scratch0 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg7_1 : Ref sig .tc := ⟨.vmem, 46, rfl⟩
abbrev cc2_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem17_0 : DmaSem sig := 22
abbrev cc0_sem18_0 : DmaSem sig := 23
abbrev cc0_sem18_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem7_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1000x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S2048_S2048x1 : S2048.ShapeCasts S2048x1
  bitsLt_bf16_f32 : FTy.bits .bf16 < FTy.bits .f32
  shapeCasts_S32_S1x32 : S32.ShapeCasts S1x32
  shapeCasts_S64_S1x64 : S64.ShapeCasts S1x64
  inb_S1x2048_S1x2048_0_0 : ∀ a, (![0, 0] : Fin 2 → Nat) a + S1x2048.size a ≤ S1x2048.size a
  h_S1x2048 : 0 < S1x2048.numel
  inb_S64x2048_S64x2048_0_0 : ∀ a, (![0, 0] : Fin 2 → Nat) a + S64x2048.size a ≤ S64x2048.size a
  h_S64x2048 : 0 < S64x2048.numel
  inb_S1000x2048_S1000x2048_0_0 : ∀ a, (![0, 0] : Fin 2 → Nat) a + S1000x2048.size a ≤ S1000x2048.size a
  h_S1000x2048 : 0 < S1000x2048.numel
  packedbf16_S1000x2048_S1000x2048_0_0 : (Rect.unit (s := S1000x2048) ![0, 0] S1000x2048.size inb_S1000x2048_S1000x2048_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1000x1_S1000x1_0_0 : ∀ a, (![0, 0] : Fin 2 → Nat) a + S1000x1.size a ≤ S1000x1.size a
  h_S1000x1 : 0 < S1000x1.numel
  shapeCasts_S1x2048_S1x2048 : S1x2048.ShapeCasts S1x2048
  inb_S1000x128_S1000x128_0_0 : ∀ a, (![0, 0] : Fin 2 → Nat) a + S1000x128.size a ≤ S1000x128.size a
  h_S1000x128 : 0 < S1000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x16_S1000x16_0_0 : ∀ a, (![0, 0] : Fin 2 → Nat) a + S1000x16.size a ≤ S1000x16.size a
  h_S1000x16 : 0 < S1000x16.numel
  inb_S16x32_S16x32_0_0 : ∀ a, (![0, 0] : Fin 2 → Nat) a + S16x32.size a ≤ S16x32.size a
  h_S16x32 : 0 < S16x32.numel
  concatenates_S1000x32_S1000x32_S1000x64_d1 : Shape.Concatenates [S1000x32, S1000x32] S1000x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1000x32_S1000x32_0_0 : ∀ a, (![0, 0] : Fin 2 → Nat) a + S1000x32.size a ≤ S1000x32.size a
  h_S1000x32 : 0 < S1000x32.numel
  inb_S32x64_S32x64_0_0 : ∀ a, (![0, 0] : Fin 2 → Nat) a + S32x64.size a ≤ S32x64.size a
  h_S32x64 : 0 < S32x64.numel
  broadcasts_S1000x1_S1000x64 : S1000x1.Broadcasts S1000x64
  shapeCasts_S64x2048_S64x2048 : S64x2048.ShapeCasts S64x2048
  shapeCasts_S2048_S1x2048 : S2048.ShapeCasts S1x2048
  broadcasts_S1x2048_S64x2048 : S1x2048.Broadcasts S64x2048
  transposes_S64x2048_p1_0_S2048x64 : S64x2048.Transposes [1, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2000x2048_S2000x2048_0_0 : ∀ a, (![0, 0] : Fin 2 → Nat) a + S2000x2048.size a ≤ S2000x2048.size a
  h_S2000x2048 : 0 < S2000x2048.numel
  shapeCasts_S2000x2048_S2000x2048 : S2000x2048.ShapeCasts S2000x2048
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S1000x2048_S2048x1_S1000x1_1_0_0_1_n_n_wf : DotDims.WF S1000x2048 S2048x1 S1000x1 [1] [0] [0] [1] [] []
  dot_S1x1000_S1000x2048_S1x2048_1_0_0_1_n_n_wf : DotDims.WF S1x1000 S1000x2048 S1x2048 [1] [0] [0] [1] [] []
  dot_S1000x128_S128x32_S1000x32_1_0_0_1_n_n_wf : DotDims.WF S1000x128 S128x32 S1000x32 [1] [0] [0] [1] [] []
  dot_S1000x16_S16x32_S1000x32_1_0_0_1_n_n_wf : DotDims.WF S1000x16 S16x32 S1000x32 [1] [0] [0] [1] [] []
  dot_S1000x64_S64x64_S1000x64_1_0_0_1_n_n_wf : DotDims.WF S1000x64 S64x64 S1000x64 [1] [0] [0] [1] [] []
  dot_S1000x64_S64x32_S1000x32_1_0_0_1_n_n_wf : DotDims.WF S1000x64 S64x32 S1000x32 [1] [0] [0] [1] [] []
  dot_S1000x32_S32x64_S1000x64_1_0_0_1_n_n_wf : DotDims.WF S1000x32 S32x64 S1000x64 [1] [0] [0] [1] [] []
  dot_S1000x64_S1000x2048_S64x2048_0_0_1_1_n_n_wf : DotDims.WF S1000x64 S1000x2048 S64x2048 [0] [0] [1] [1] [] []
  dot_S2000x2048_S2048x64_S2000x64_1_0_0_1_n_n_wf : DotDims.WF S2000x2048 S2048x64 S2000x64 [1] [0] [0] [1] [] []
  dot_S2000x64_S64x64_S2000x64_1_0_0_1_n_n_wf : DotDims.WF S2000x64 S64x64 S2000x64 [1] [0] [0] [1] [] []
  dot_S2000x64_S2000x2048_S64x2048_0_0_1_1_n_n_wf : DotDims.WF S2000x64 S2000x2048 S64x2048 [0] [0] [1] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S10000x16.size a
  hwx0_2 : ∀ i : grid0.Coords, EltTy.bits .f32 = 32 ∨ (Rect.block (s := S10000x16) S1000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .bf16 = 32 ∨ (Rect.block (s := S2048x1) S2048x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .f32 = 32 ∨ (Rect.block (s := S64x32) S64x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x64.size a ≤ S32x64.size a
  hwx0_12 : ∀ i : grid0.Coords, EltTy.bits .f32 = 32 ∨ (Rect.block (s := S32x64) S32x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x32.size a ≤ S10000x32.size a
  hwx0_14 : ∀ i : grid0.Coords, EltTy.bits .f32 = 32 ∨ (Rect.block (s := S10000x32) S1000x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x1.size a ≤ S10000x1.size a
  hwx0_15 : ∀ i : grid0.Coords, EltTy.bits .f32 = 32 ∨ (Rect.block (s := S10000x1) S1000x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x2048.size a
  hwx0_16 : ∀ i : grid0.Coords, EltTy.bits .f32 = 32 ∨ (Rect.block (s := S1x2048) S1x2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2048.size a ≤ S64x2048.size a
  hwx0_17 : ∀ i : grid0.Coords, EltTy.bits .f32 = 32 ∨ (Rect.block (s := S64x2048) S64x2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x2048.size a ≤ S10000x2048.size a
  hwx0_18 : ∀ i : grid0.Coords, EltTy.bits .bf16 = 32 ∨ (Rect.block (s := S10000x2048) S1000x2048.size (cc0_transform_18 i) (hinb0_18 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2048.size a ≤ S10000x2048.size a
  hwx1_0 : ∀ i : grid1.Coords, EltTy.bits .bf16 = 32 ∨ (Rect.block (s := S10000x2048) S2000x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S64x2048.size a
  hwx1_2 : ∀ i : grid1.Coords, EltTy.bits .f32 = 32 ∨ (Rect.block (s := S64x2048) S64x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2048.size a ≤ S64x2048.size a
  hwx1_7 : ∀ i : grid1.Coords, EltTy.bits .f32 = 32 ∨ (Rect.block (s := S64x2048) S64x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2048.size a ≤ S10000x2048.size a
  hwx2_0 : ∀ i : grid2.Coords, EltTy.bits .bf16 = 32 ∨ (Rect.block (s := S10000x2048) S2000x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S10000x1.size a
  hwx2_1 : ∀ i : grid2.Coords, EltTy.bits .f32 = 32 ∨ (Rect.block (s := S10000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2048.size a ≤ S64x2048.size a
  hwx2_2 : ∀ i : grid2.Coords, EltTy.bits .f32 = 32 ∨ (Rect.block (s := S64x2048) S64x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .f32 = 32 ∨ (Rect.block (s := S64x2) S64x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x2.size a ≤ S10000x2.size a
  hwx2_7 : ∀ i : grid2.Coords, EltTy.bits .f32 = 32 ∨ (Rect.block (s := S10000x2) S2000x2.size (cc2_transform_7 i) (hinb2_7 i)).WholeWords (EltTy.packing .f32)

variable [Facts₀]

def dot_S1000x2048_S2048x1_S1000x1_1_0_0_1_n_n : DotDims S1000x2048 S2048x1 S1000x1 where
  lhsContracting := [1]
  rhsContracting := [0]
  lhsNonContracting := [0]
  rhsNonContracting := [1]
  lhsBatch := []
  rhsBatch := []
  wf := dot_S1000x2048_S2048x1_S1000x1_1_0_0_1_n_n_wf
def dot_S1x1000_S1000x2048_S1x2048_1_0_0_1_n_n : DotDims S1x1000 S1000x2048 S1x2048 where
  lhsContracting := [1]
  rhsContracting := [0]
  lhsNonContracting := [0]
  rhsNonContracting := [1]
  lhsBatch := []
  rhsBatch := []
  wf := dot_S1x1000_S1000x2048_S1x2048_1_0_0_1_n_n_wf
def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf
def dot_S1000x16_S16x32_S1000x32_1_0_0_1_n_n : DotDims S1000x16 S16x32 S1000x32 where
  lhsContracting := [1]
  rhsContracting := [0]
  lhsNonContracting := [0]
  rhsNonContracting := [1]
  lhsBatch := []
  rhsBatch := []
  wf := dot_S1000x16_S16x32_S1000x32_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S1000x2048_S64x2048_0_0_1_1_n_n : DotDims S1000x64 S1000x2048 S64x2048 where
  lhsContracting := [0]
  rhsContracting := [0]
  lhsNonContracting := [1]
  rhsNonContracting := [1]
  lhsBatch := []
  rhsBatch := []
  wf := dot_S1000x64_S1000x2048_S64x2048_0_0_1_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x2048_S64x2048_0_0_1_1_n_n : DotDims S2000x64 S2000x2048 S64x2048 where
  lhsContracting := [0]
  rhsContracting := [0]
  lhsNonContracting := [1]
  rhsNonContracting := [1]
  lhsBatch := []
  rhsBatch := []
  wf := dot_S2000x64_S2000x2048_S64x2048_0_0_1_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg2) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7_0) S1000x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_1) S1000x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v7_2) S1x2048.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7_3) S64x2048.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7_4) S1000x2048.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v7_4) S2000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_3) S64x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_2) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S64x2048.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v7_4) S2000x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S64x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7_2) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S2000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.K.Dats.lean ====
import proofs.«104285_g40587440947829_cont_sun_m_1101_7_alg».proof.Proof.Gen.Kernel.Launch
import proofs.«104285_g40587440947829_cont_sun_m_1101_7_alg».proof.Proof.Gen.Kernel.Skeleton
import proofs.«104285_g40587440947829_cont_sun_m_1101_7_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Hb0 (c : Dev nD) (t : Fin cfg0.N) : Vec F S1000x2048 .f32 := iblk0 V c 0 t
abbrev xb0 (c : Dev nD) (t : Fin cfg0.N) : Vec F S1000x128 .f32 := iblk0 V c 1 t
abbrev zb0 (c : Dev nD) (t : Fin cfg0.N) : Vec F S1000x16 .f32 := iblk0 V c 2 t
abbrev wb0 (c : Dev nD) (t : Fin cfg0.N) : Vec F S2048x1 .bf16 := iblk0 V c 3 t
abbrev psiW0 (c : Dev nD) (t : Fin cfg0.N) : Vec F S128x32 .f32 := iblk0 V c 4 t
abbrev psib0 (c : Dev nD) (t : Fin cfg0.N) : Vec F S1x32 .f32 := iblk0 V c 5 t
abbrev phiW0 (c : Dev nD) (t : Fin cfg0.N) : Vec F S16x32 .f32 := iblk0 V c 6 t
abbrev phib0 (c : Dev nD) (t : Fin cfg0.N) : Vec F S1x32 .f32 := iblk0 V c 7 t
abbrev g1W0 (c : Dev nD) (t : Fin cfg0.N) : Vec F S64x64 .f32 := iblk0 V c 8 t
abbrev g1b0 (c : Dev nD) (t : Fin cfg0.N) : Vec F S1x64 .f32 := iblk0 V c 9 t
abbrev g2W0 (c : Dev nD) (t : Fin cfg0.N) : Vec F S64x32 .f32 := iblk0 V c 10 t
abbrev g2b0 (c : Dev nD) (t : Fin cfg0.N) : Vec F S1x32 .f32 := iblk0 V c 11 t
abbrev c1W0 (c : Dev nD) (t : Fin cfg0.N) : Vec F S32x64 .f32 := iblk0 V c 12 t
abbrev c1b0 (c : Dev nD) (t : Fin cfg0.N) : Vec F S1x64 .f32 := iblk0 V c 13 t

def x1At (c : Dev nD) (t : Fin cfg0.N) : FVec F S1000x32 .f32 := k0_pay7 (xb0 V c t) (psiW0 V c t) (psib0 V c t)

def gAt (c : Dev nD) (t : Fin cfg0.N) : FVec F S1000x32 .f32 :=
  k0_pay9 (x1At V c t) (zb0 V c t) (phiW0 V c t) (phib0 V c t) (g1W0 V c t) (g1b0 V c t) (g2W0 V c t) (g2b0 V c t)

def sAt (c : Dev nD) (t : Fin cfg0.N) : FVec F S1000x1 .f32 := k0_pay5 (Hb0 V c t) (wb0 V c t)

def hAt (c : Dev nD) (t : Fin cfg0.N) : FVec F S1000x2048 .bf16 := k0_pay4 (Hb0 V c t)

def xn1At (c : Dev nD) (t : Fin cfg0.N) : FVec F S1000x64 .f32 :=
  k0_pay10 (sAt V c t) (x1At V c t) (zb0 V c t) (phiW0 V c t) (phib0 V c t) (g1W0 V c t) (g1b0 V c t) (g2W0 V c t) (g2b0 V c t) (c1W0 V c t) (c1b0 V c t)

def deAt (c : Dev nD) : (n : ℕ) → n < cfg0.N → FVec F S1x2048 .f32
  | 0, h => k0_pay6 (Hb0 V c ⟨0, h⟩) k0_pay2
  | n + 1, h => k0_pay6 (Hb0 V c ⟨n + 1, h⟩) (deAt c n (Nat.lt_of_succ_lt h))

def m1tAt (c : Dev nD) : (n : ℕ) → n < cfg0.N → FVec F S64x2048 .f32
  | 0, h => k0_pay1 (hAt V c ⟨0, h⟩) (xn1At V c ⟨0, h⟩) k0_pay3
  | n + 1, h => k0_pay1 (hAt V c ⟨n + 1, h⟩) (xn1At V c ⟨n + 1, h⟩) (m1tAt c n (Nat.lt_of_succ_lt h))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => gAt V c t
    | ⟨15, _⟩ => sAt V c t
    | ⟨16, _⟩ => deAt V c t.val t.isLt
    | ⟨17, _⟩ => m1tAt V c t.val t.isLt
    | ⟨18, _⟩ => hAt V c t
    | ⟨_ + 19, h⟩ => absurd h (Nat.not_lt.2 (Nat.le_add_left _ _))
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Hb1 (c : Dev nD) (t : Fin cfg1.N) : Vec F S2000x2048 .bf16 := iblk1 V c 0 t
abbrev sb1 (c : Dev nD) (t : Fin cfg1.N) : Vec F S2000x1 .f32 := iblk1 V c 1 t
abbrev m1t1 (c : Dev nD) (t : Fin cfg1.N) : Vec F S64x2048 .f32 := iblk1 V c 2 t
abbrev wr1 (c : Dev nD) (t : Fin cfg1.N) : Vec F S1x2048 .f32 := iblk1 V c 3 t
abbrev de1 (c : Dev nD) (t : Fin cfg1.N) : Vec F S1x2048 .f32 := iblk1 V c 4 t
abbrev c2W1 (c : Dev nD) (t : Fin cfg1.N) : Vec F S64x64 .f32 := iblk1 V c 5 t
abbrev c2b1 (c : Dev nD) (t : Fin cfg1.N) : Vec F S1x64 .f32 := iblk1 V c 6 t

def t1z : Fin cfg1.N := ⟨0, by rw [show cfg1.N = 5 from N_1]; decide⟩

def scr1 (c : Dev nD) : FVec F S2048x64 .bf16 := k1_pay2 (wr1 V c t1z) (de1 V c t1z) (m1t1 V c t1z)

def m2tAt (c : Dev nD) : (n : ℕ) → n < cfg1.N → FVec F S64x2048 .f32
  | 0, h => k1_pay3 (Hb1 V c ⟨0, h⟩) (sb1 V c ⟨0, h⟩) (scr1 V c) (c2W1 V c ⟨0, h⟩) (c2b1 V c ⟨0, h⟩) k1_pay1
  | n + 1, h => k1_pay3 (Hb1 V c ⟨n + 1, h⟩) (sb1 V c ⟨n + 1, h⟩) (scr1 V c) (c2W1 V c ⟨n + 1, h⟩) (c2b1 V c ⟨n + 1, h⟩) (m2tAt c n (Nat.lt_of_succ_lt h))

abbrev scM1 : Memref sig .tc .vmem S2048x64 .bf16 := Memref.whole cc1_scratch0

def Phi1 (c : Dev nD) : (n : ℕ) → sProp 𝕄
  | 0 => Pipeline.ΦA spec1 c
  | _ + 1 => iprop(owns (c : Thread nD τ) scM1 fullShare (scr1 V c)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => m2tAt V c t.val t.isLt
  Φ t := Phi1 V c t.val
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev Hb2 (c : Dev nD) (t : Fin cfg2.N) : Vec F S2000x2048 .bf16 := iblk2 V c 0 t
abbrev sb2 (c : Dev nD) (t : Fin cfg2.N) : Vec F S2000x1 .f32 := iblk2 V c 1 t
abbrev m2t2 (c : Dev nD) (t : Fin cfg2.N) : Vec F S64x2048 .f32 := iblk2 V c 2 t
abbrev wr2 (c : Dev nD) (t : Fin cfg2.N) : Vec F S1x2048 .f32 := iblk2 V c 3 t
abbrev de2 (c : Dev nD) (t : Fin cfg2.N) : Vec F S1x2048 .f32 := iblk2 V c 4 t
abbrev hdW2 (c : Dev nD) (t : Fin cfg2.N) : Vec F S64x2 .f32 := iblk2 V c 5 t
abbrev hdb2 (c : Dev nD) (t : Fin cfg2.N) : Vec F S1x2 .f32 := iblk2 V c 6 t

def t2z : Fin cfg2.N := ⟨0, by rw [show cfg2.N = 5 from N_2]; decide⟩

def scr2 (c : Dev nD) : FVec F S2048x64 .bf16 := k2_pay1 (wr2 V c t2z) (de2 V c t2z) (m2t2 V c t2z)

def outAt (c : Dev nD) (t : Fin cfg2.N) : FVec F S2000x2 .f32 :=
  k2_pay2 (Hb2 V c t) (sb2 V c t) (scr2 V c) (hdW2 V c t) (hdb2 V c t)

abbrev scM2 : Memref sig .tc .vmem S2048x64 .bf16 := Memref.whole cc2_scratch0

def Phi2 (c : Dev nD) : (n : ℕ) → sProp 𝕄
  | 0 => Pipeline.ΦA spec2 c
  | _ + 1 => iprop(owns (c : Thread nD τ) scM2 fullShare (scr2 V c)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt V c t
  Φ t := Phi2 V c t.val
  q _ := fullShare
  owed _ := 0

end Cert.Kernel.Hand

end
-- ==== Proof.K.R0Conds.lean ====
import proofs.«104285_g40587440947829_cont_sun_m_1101_7_alg».proof.Proof.K.Dats
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

theorem r0_hz : (![0, 0] : Fin 2 → Nat) = fun _ => 0 := funext fun a => by fin_cases a <;> rfl

theorem r0_read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

theorem r0_readAt_whole {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

end Cert.Kernel.Hand

end
-- ==== Proof.K.R0RunB.lean ====
import proofs.«104285_g40587440947829_cont_sun_m_1101_7_alg».proof.Proof.K.R0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun0_B (c : Dev nD) (i : grid0.Coords) (arg1 : Memref sig .tc .vmem S1000x2048 .f32) (harg1 : arg1.IsWhole) (arg2 : Memref sig .tc .vmem S1000x128 .f32) (harg2 : arg2.IsWhole) (arg3 : Memref sig .tc .vmem S1000x16 .f32) (harg3 : arg3.IsWhole) (arg4 : Memref sig .tc .vmem S2048x1 .bf16) (harg4 : arg4.IsWhole) (arg5 : Memref sig .tc .vmem S128x32 .f32) (harg5 : arg5.IsWhole) (arg6 : Memref sig .tc .vmem S1x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x64 .f32) (harg14 : arg14.IsWhole) (arg15 : Memref sig .tc .vmem S1000x32 .f32) (harg15 : arg15.IsWhole) (arg16 : Memref sig .tc .vmem S1000x1 .f32) (harg16 : arg16.IsWhole) (arg17 : Memref sig .tc .vmem S1x2048 .f32) (harg17 : arg17.IsWhole) (arg18 : Memref sig .tc .vmem S64x2048 .f32) (harg18 : arg18.IsWhole) (arg19 : Memref sig .tc .vmem S1000x2048 .bf16) (harg19 : arg19.IsWhole) (hc0 : ¬cond0_0 i)
    (x0 : Vec F S1000x2048 .f32) (x1 : Vec F S1000x128 .f32) (x2 : Vec F S1000x16 .f32) (x3 : Vec F S2048x1 .bf16) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xd : Vec F S1x2048 .f32) (xm : Vec F S64x2048 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ (∃ d, owns (c : Thread nD τ) arg15 fullShare d)
            ∗ (∃ d, owns (c : Thread nD τ) arg16 fullShare d)
            ∗ owns (c : Thread nD τ) arg17 fullShare xd
            ∗ owns (c : Thread nD τ) arg18 fullShare xm
            ∗ (∃ d, owns (c : Thread nD τ) arg19 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ owns (c : Thread nD τ) arg11 fullShare x10
                ∗ owns (c : Thread nD τ) arg12 fullShare x11
                ∗ owns (c : Thread nD τ) arg13 fullShare x12
                ∗ owns (c : Thread nD τ) arg14 fullShare x13
                ∗ owns (c : Thread nD τ) arg15 fullShare (k0_pay9 (k0_pay7 x1 x4 x5) x2 x6 x7 x8 x9 x10 x11)
                ∗ owns (c : Thread nD τ) arg16 fullShare (k0_pay5 x0 x3)
                ∗ owns (c : Thread nD τ) arg17 fullShare (k0_pay6 x0 xd)
                ∗ owns (c : Thread nD τ) arg18 fullShare (k0_pay1 (k0_pay4 x0) (k0_pay10 (k0_pay5 x0 x3) (k0_pay7 x1 x4 x5) x2 x6 x7 x8 x9 x10 x11 x12 x13) xm)
                ∗ owns (c : Thread nD τ) arg19 fullShare (k0_pay4 x0)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg18.eq_unread hf17
    sl_exec (disch := first | exact hc0)
    sl_step
    iapply Hk
    isplitl [H0]; iexists _; isplitr; swap; iexact H0; ipureintro; exact hf0
    isplitl [H1]; iexists _; isplitr; swap; iexact H1; ipureintro; exact hf1
    isplitl [H2]; iexists _; isplitr; swap; iexact H2; ipureintro; exact hf2
    isplitl [H3]; iexists _; isplitr; swap; iexact H3; ipureintro; exact hf3
    isplitl [H4]; iexists _; isplitr; swap; iexact H4; ipureintro; exact hf4
    isplitl [H5]; iexists _; isplitr; swap; iexact H5; ipureintro; exact hf5
    isplitl [H6]; iexists _; isplitr; swap; iexact H6; ipureintro; exact hf6
    isplitl [H7]; iexists _; isplitr; swap; iexact H7; ipureintro; exact hf7
    isplitl [H8]; iexists _; isplitr; swap; iexact H8; ipureintro; exact hf8
    isplitl [H9]; iexists _; isplitr; swap; iexact H9; ipureintro; exact hf9
    isplitl [H10]; iexists _; isplitr; swap; iexact H10; ipureintro; exact hf10
    isplitl [H11]; iexists _; isplitr; swap; iexact H11; ipureintro; exact hf11
    isplitl [H12]; iexists _; isplitr; swap; iexact H12; ipureintro; exact hf12
    isplitl [H13]; iexists _; isplitr; swap; iexact H13; ipureintro; exact hf13
    isplitl [H14]; iexists _; isplitr; swap; iexact H14; ipureintro; rotate_left
    isplitl [H15]; iexists _; isplitr; swap; iexact H15; ipureintro; rotate_left
    isplitl [H16]; iexists _; isplitr; swap; iexact H16; ipureintro; rotate_left
    isplitl [H17]; iexists _; isplitr; swap; iexact H17; ipureintro; rotate_left
    iexists _; isplitr; swap; iexact H18; ipureintro
    all_goals
      refine (r0_read_writes_whole _ _ r0_hz _ _ _).trans ?_
      sl_unfold_words
      simp only [r0_readAt_whole _ harg1 r0_hz, r0_readAt_whole _ harg2 r0_hz, r0_readAt_whole _ harg3 r0_hz, r0_readAt_whole _ harg4 r0_hz, r0_readAt_whole _ harg5 r0_hz, r0_readAt_whole _ harg6 r0_hz, r0_readAt_whole _ harg7 r0_hz, r0_readAt_whole _ harg8 r0_hz, r0_readAt_whole _ harg9 r0_hz, r0_readAt_whole _ harg10 r0_hz, r0_readAt_whole _ harg11 r0_hz, r0_readAt_whole _ harg12 r0_hz, r0_readAt_whole _ harg13 r0_hz, r0_readAt_whole _ harg14 r0_hz, r0_readAt_whole _ harg17 r0_hz, r0_readAt_whole _ harg18 r0_hz]

end Cert.Kernel.Hand

end
-- ==== Proof.K.R0RunA.lean ====
import proofs.«104285_g40587440947829_cont_sun_m_1101_7_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun0_A (c : Dev nD) (i : grid0.Coords) (arg1 : Memref sig .tc .vmem S1000x2048 .f32) (harg1 : arg1.IsWhole) (arg2 : Memref sig .tc .vmem S1000x128 .f32) (harg2 : arg2.IsWhole) (arg3 : Memref sig .tc .vmem S1000x16 .f32) (harg3 : arg3.IsWhole) (arg4 : Memref sig .tc .vmem S2048x1 .bf16) (harg4 : arg4.IsWhole) (arg5 : Memref sig .tc .vmem S128x32 .f32) (harg5 : arg5.IsWhole) (arg6 : Memref sig .tc .vmem S1x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x64 .f32) (harg14 : arg14.IsWhole) (arg15 : Memref sig .tc .vmem S1000x32 .f32) (harg15 : arg15.IsWhole) (arg16 : Memref sig .tc .vmem S1000x1 .f32) (harg16 : arg16.IsWhole) (arg17 : Memref sig .tc .vmem S1x2048 .f32) (harg17 : arg17.IsWhole) (arg18 : Memref sig .tc .vmem S64x2048 .f32) (harg18 : arg18.IsWhole) (arg19 : Memref sig .tc .vmem S1000x2048 .bf16) (harg19 : arg19.IsWhole) (hc0 : cond0_0 i)
    (x0 : Vec F S1000x2048 .f32) (x1 : Vec F S1000x128 .f32) (x2 : Vec F S1000x16 .f32) (x3 : Vec F S2048x1 .bf16) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ owns (c : Thread nD τ) arg11 fullShare x10
                ∗ owns (c : Thread nD τ) arg12 fullShare x11
                ∗ owns (c : Thread nD τ) arg13 fullShare x12
                ∗ owns (c : Thread nD τ) arg14 fullShare x13
                ∗ owns (c : Thread nD τ) arg15 fullShare (k0_pay9 (k0_pay7 x1 x4 x5) x2 x6 x7 x8 x9 x10 x11)
                ∗ owns (c : Thread nD τ) arg16 fullShare (k0_pay5 x0 x3)
                ∗ owns (c : Thread nD τ) arg17 fullShare (k0_pay6 x0 (k0_pay2 (F := F)))
                ∗ owns (c : Thread nD τ) arg18 fullShare (k0_pay1 (k0_pay4 x0) (k0_pay10 (k0_pay5 x0 x3) (k0_pay7 x1 x4 x5) x2 x6 x7 x8 x9 x10 x11 x12 x13) (k0_pay3 (F := F)))
                ∗ owns (c : Thread nD τ) arg19 fullShare (k0_pay4 x0)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | exact hc0)
    sl_step
    iapply Hk
    isplitl [H0]; iexists _; isplitr; swap; iexact H0; ipureintro; exact hf0
    isplitl [H1]; iexists _; isplitr; swap; iexact H1; ipureintro; exact hf1
    isplitl [H2]; iexists _; isplitr; swap; iexact H2; ipureintro; exact hf2
    isplitl [H3]; iexists _; isplitr; swap; iexact H3; ipureintro; exact hf3
    isplitl [H4]; iexists _; isplitr; swap; iexact H4; ipureintro; exact hf4
    isplitl [H5]; iexists _; isplitr; swap; iexact H5; ipureintro; exact hf5
    isplitl [H6]; iexists _; isplitr; swap; iexact H6; ipureintro; exact hf6
    isplitl [H7]; iexists _; isplitr; swap; iexact H7; ipureintro; exact hf7
    isplitl [H8]; iexists _; isplitr; swap; iexact H8; ipureintro; exact hf8
    isplitl [H9]; iexists _; isplitr; swap; iexact H9; ipureintro; exact hf9
    isplitl [H10]; iexists _; isplitr; swap; iexact H10; ipureintro; exact hf10
    isplitl [H11]; iexists _; isplitr; swap; iexact H11; ipureintro; exact hf11
    isplitl [H12]; iexists _; isplitr; swap; iexact H12; ipureintro; exact hf12
    isplitl [H13]; iexists _; isplitr; swap; iexact H13; ipureintro; exact hf13
    isplitl [H14]; iexists _; isplitr; swap; iexact H14; ipureintro; rotate_left
    isplitl [H15]; iexists _; isplitr; swap; iexact H15; ipureintro; rotate_left
    isplitl [H16]; iexists _; isplitr; swap; iexact H16; ipureintro; rotate_left
    isplitl [H17]; iexists _; isplitr; swap; iexact H17; ipureintro; rotate_left
    iexists _; isplitr; swap; iexact H18; ipureintro
    all_goals
      refine (r0_read_writes_whole _ _ r0_hz _ _ _).trans ?_
      sl_unfold_words
      simp only [r0_readAt_whole _ harg1 r0_hz, r0_readAt_whole _ harg2 r0_hz, r0_readAt_whole _ harg3 r0_hz, r0_readAt_whole _ harg4 r0_hz, r0_readAt_whole _ harg5 r0_hz, r0_readAt_whole _ harg6 r0_hz, r0_readAt_whole _ harg7 r0_hz, r0_readAt_whole _ harg8 r0_hz, r0_readAt_whole _ harg9 r0_hz, r0_readAt_whole _ harg10 r0_hz, r0_readAt_whole _ harg11 r0_hz, r0_readAt_whole _ harg12 r0_hz, r0_readAt_whole _ harg13 r0_hz, r0_readAt_whole _ harg14 r0_hz, View.readCov_unit_zero (S := S1x2048) _ r0_hz, View.readCov_unit_zero (S := S64x2048) _ r0_hz]

end Cert.Kernel.Hand

end
-- ==== Proof.K.Frame0.lean ====
import proofs.«104285_g40587440947829_cont_sun_m_1101_7_alg».proof.Proof.K.Dats
import proofs.«104285_g40587440947829_cont_sun_m_1101_7_alg».proof.Proof.K.R0RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r0_after (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t ∧ (dat0 V c).after 9 t = iblk0 V c 9 t ∧ (dat0 V c).after 10 t = iblk0 V c 10 t ∧ (dat0 V c).after 11 t = iblk0 V c 11 t ∧ (dat0 V c).after 12 t = iblk0 V c 12 t ∧ (dat0 V c).after 13 t = iblk0 V c 13 t ∧ (dat0 V c).after 14 t = gAt V c t ∧ (dat0 V c).after 15 t = sAt V c t ∧ (dat0 V c).after 16 t = deAt V c t.val t.isLt ∧ (dat0 V c).after 17 t = m1tAt V c t.val t.isLt ∧ (dat0 V c).after 18 t = hAt V c t := by
  dsimp only [dat0]; simp only [and_self]

theorem r0_before (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) ∧ (∀ d, (dat0 V c).before 11 t d = iblk0 V c 11 t) ∧ (∀ d, (dat0 V c).before 12 t d = iblk0 V c 12 t) ∧ (∀ d, (dat0 V c).before 13 t d = iblk0 V c 13 t) := by
  refine ⟨?_, ?_, ?_, ?_, ?_, ?_, ?_, ?_, ?_, ?_, ?_, ?_, ?_, ?_⟩ <;>
    exact fun d => (dat0 V c).before_in_eq_fetched _ rfl (fun _ => rfl) (fun _ _ _ => rfl) (fun _ => rfl) t d

theorem r0_before_acc (c : Dev nD) (w : Fin cfg0.W) (hw : (cfg0.win w).isOut = true)
    (hf : ∀ t : Fin cfg0.N, (cfg0.win w).flush t = true ↔ t.val % 10 = 9) (hclip : ∀ (i : cfg0.grid.Coords) a, (cfg0.win w).clip i a = none)
    (t : Fin cfg0.N) (ht : t.val ≠ 0) (d) :
    (dat0 V c).before w t d = (dat0 V c).after w ⟨t.val - 1, Nat.lt_of_le_of_lt (Nat.sub_le _ _) t.isLt⟩ := by
  refine (dat0 V c).before_out_kept w hw t ht ?_ (fun _ => rfl) hclip d
  have hN : t.val < 10 := lt_of_lt_of_eq t.isLt (show cfg0.N = 10 from N_0)
  cases h : (cfg0.win w).flush ⟨t.val - 1, Nat.lt_of_le_of_lt (Nat.sub_le _ _) t.isLt⟩
  · rfl
  · have h9 : (t.val - 1) % 10 = 9 := (hf _).mp h
    omega

theorem r0_before_16 (c : Dev nD) (t : Fin cfg0.N) (ht : t.val ≠ 0) (d) :
    (dat0 V c).before 16 t d = deAt V c (t.val - 1) (Nat.lt_of_le_of_lt (Nat.sub_le _ _) t.isLt) :=
  r0_before_acc V c 16 rfl flush0_16 (fun _ _ => rfl) t ht d

theorem r0_before_17 (c : Dev nD) (t : Fin cfg0.N) (ht : t.val ≠ 0) (d) :
    (dat0 V c).before 17 t d = m1tAt V c (t.val - 1) (Nat.lt_of_le_of_lt (Nat.sub_le _ _) t.isLt) :=
  r0_before_acc V c 17 rfl flush0_17 (fun _ _ => rfl) t ht d

theorem r0_acc_zero (c : Dev nD) (t : Fin cfg0.N) (h : t.val = 0) :
    deAt V c t.val t.isLt = k0_pay6 (Hb0 V c t) (k0_pay2 (F := F))
      ∧ m1tAt V c t.val t.isLt = k0_pay1 (hAt V c t) (xn1At V c t) (k0_pay3 (F := F)) := by
  obtain ⟨n, hn⟩ := t
  cases n with
  | zero => exact ⟨rfl, rfl⟩
  | succ n => exact absurd h (Nat.succ_ne_zero n)

theorem r0_acc_pos (c : Dev nD) (t : Fin cfg0.N) (h : t.val ≠ 0) :
    deAt V c t.val t.isLt = k0_pay6 (Hb0 V c t) (deAt V c (t.val - 1) (Nat.lt_of_le_of_lt (Nat.sub_le _ _) t.isLt))
      ∧ m1tAt V c t.val t.isLt = k0_pay1 (hAt V c t) (xn1At V c t) (m1tAt V c (t.val - 1) (Nat.lt_of_le_of_lt (Nat.sub_le _ _) t.isLt)) := by
  obtain ⟨n, hn⟩ := t
  cases n with
  | zero => exact absurd rfl h
  | succ n => exact ⟨rfl, rfl⟩

theorem A_eq0 (c : Dev nD) (w : Fin cfg0.W) : (dat0 V c).A w = V c (Pipeline.arrRef spec0 w) := by
  dsimp only [dat0]

theorem body_obligation0 (c : Dev nD) : BodyObligation (dat0 (F := F) V c) (defs₀ (F := F)) Variants.none () Set.univ := fun t => by
  show _ ⊢ wp _ _ _ (bodyAt0 t) _
  rw [bigSep_W0, bigSep_W0]
  obtain ⟨b0, b1, b2, b3, b4, b5, b6, b7, b8, b9, b10, b11, b12, b13⟩ := r0_before V c t
  obtain ⟨a0, a1, a2, a3, a4, a5, a6, a7, a8, a9, a10, a11, a12, a13, a14, a15, a16, a17, a18⟩ := r0_after V c t
  simp only [b0, b1, b2, b3, b4, b5, b6, b7, b8, b9, b10, b11, b12, b13, a0, a1, a2, a3, a4, a5, a6, a7, a8, a9, a10, a11, a12, a13, a14, a15, a16, a17, a18]
  rw [show (dat0 V c).owesAt () t.succ = (dat0 V c).owesAt () t.castSucc from rfl, show (dat0 V c).Φ t.succ = (dat0 V c).Φ t.castSucc from rfl]
  by_cases h0 : t.val = 0 <;>
    [rw [(r0_acc_zero V c t h0).1, (r0_acc_zero V c t h0).2];
     (simp only [r0_before_16 V c t h0, r0_before_17 V c t h0]; rw [(r0_acc_pos V c t h0).1, (r0_acc_pos V c t h0).2])] <;>
  · unfold gAt xn1At sAt hAt x1At
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    first
      | iapply (kernelRun0_A c (grid0.coords t) _ _ _ _ _ _ _ _ _ _ _ _ _ _ _ _ _ _ _ _ _ _ _ _ _ _ _ _ _ _ _ _ _ _ _ _ _ _ ((hcond0_0 t).mpr h0) _ _ _ _ _ _ _ _ _ _ _ _ _ _ Set.univ _)
      | iapply (kernelRun0_B c (grid0.coords t) _ _ _ _ _ _ _ _ _ _ _ _ _ _ _ _ _ _ _ _ _ _ _ _ _ _ _ _ _ _ _ _ _ _ _ _ _ _ (fun h => h0 ((hcond0_0 t).mp h)) _ _ _ _ _ _ _ _ _ _ _ _ _ _ _ _ Set.univ _)
    iframe
    isplitl [H14]; · iexists _; iexact H14
    isplitl [H15]; · iexists _; iexact H15
    try (isplitl [H16]; · iexists _; iexact H16)
    try (isplitl [H17]; · iexists _; iexact H17)
    isplitl [H18]; · iexists _; iexact H18
    iintro ⟨H0, H1, H2, H3, H4, H5, H6, H7, H8, H9, H10, H11, H12, H13, H14, H15, H16, H17, H18⟩
    iframe

theorem hin0 (c : Dev nD) : (Pipeline.ΦA spec0 c : sProp 𝕄) ⊢ (dat0 V c).Φ 0 := Idealize.SL.BI.Entails.refl _

theorem hout0 (c : Dev nD) : (dat0 V c).Φ (Fin.last cfg0.N) ⊢ (Pipeline.ΦA spec0 c : sProp 𝕄) := Idealize.SL.BI.Entails.refl _

end Cert.Kernel.Hand

end
-- ==== Proof.K.R1Conds.lean ====
import proofs.«104285_g40587440947829_cont_sun_m_1101_7_alg».proof.Proof.K.Dats
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev ms1_0 (t : Fin cfg1.N) : Memref sig .tc .vmem S2000x2048 .bf16 := win1_0.stage (cfg1.slots t 0)
abbrev ms1_1 (t : Fin cfg1.N) : Memref sig .tc .vmem S2000x1 .f32 := win1_1.stage (cfg1.slots t 1)
abbrev ms1_2 (t : Fin cfg1.N) : Memref sig .tc .vmem S64x2048 .f32 := win1_2.stage (cfg1.slots t 2)
abbrev ms1_3 (t : Fin cfg1.N) : Memref sig .tc .vmem S1x2048 .f32 := win1_3.stage (cfg1.slots t 3)
abbrev ms1_4 (t : Fin cfg1.N) : Memref sig .tc .vmem S1x2048 .f32 := win1_4.stage (cfg1.slots t 4)
abbrev ms1_5 (t : Fin cfg1.N) : Memref sig .tc .vmem S64x64 .f32 := win1_5.stage (cfg1.slots t 5)
abbrev ms1_6 (t : Fin cfg1.N) : Memref sig .tc .vmem S1x64 .f32 := win1_6.stage (cfg1.slots t 6)
abbrev ms1_7 (t : Fin cfg1.N) : Memref sig .tc .vmem S64x2048 .f32 := win1_7.stage (cfg1.slots t 7)

theorem r1_zeros2 : (![0, 0] : Fin 2 → Nat) = fun _ => 0 := funext fun a => by fin_cases a <;> rfl

/-- `read` through a whole memref is a bijection, so the contents that read `X` are unique. -/
theorem r1_owns_unread (c : Dev nD) {sh : Shape} {e : EltTy} {m : Memref sig .tc .vmem sh e} (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X) ⊢ (owns (c : Thread nD τ) m fullShare X : sProp 𝕄) := by
    unfold owns; iintro H; iexists _; isplitr; · ipureintro; exact h.read_unread _
    iexact H
  exact BI.equiv_iff.mp ⟨h₁, h₂⟩

end Cert.Kernel.Hand

end
-- ==== Proof.K.R1RunA.lean ====
import proofs.«104285_g40587440947829_cont_sun_m_1101_7_alg».proof.Proof.K.R1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1 (c : Dev nD) (i : grid1.Coords)
    (arg1 : Memref sig .tc .vmem S2000x2048 .bf16) (harg1 : arg1.IsWhole) (arg2 : Memref sig .tc .vmem S2000x1 .f32) (harg2 : arg2.IsWhole)
    (arg3 : Memref sig .tc .vmem S64x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x2048 .f32) (harg8 : arg8.IsWhole)
    (arg9 : Memref sig .tc .vmem S2048x64 .bf16) (harg9 : arg9.IsWhole)
    (x0 : Vec F S2000x2048 .bf16) (x1 : Vec F S2000x1 .f32) (x2 : Vec F S64x2048 .f32) (x3 : Vec F S1x2048 .f32) (x4 : Vec F S1x2048 .f32)
    (x5 : Vec F S64x64 .f32) (x6 : Vec F S1x64 .f32) (x7 y7 : Vec F S64x2048 .f32) (xs ys : Vec F S2048x64 .bf16)
    (hA : cond1_0 i → ys = k1_pay2 x3 x4 x2 ∧ y7 = k1_pay3 x0 x1 ys x5 x6 (k1_pay1 (F := F)))
    (hB : ¬cond1_0 i → ys = xs ∧ y7 = k1_pay3 x0 x1 xs x5 x6 x7) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare xs
          ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare y7 ∗ owns (c : Thread nD τ) arg9 fullShare ys) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9) K := by
  simp only [cc1__pass2_kernel_eq_skeleton, r1_owns_unread c harg1, r1_owns_unread c harg2, r1_owns_unread c harg3, r1_owns_unread c harg4,
    r1_owns_unread c harg5, r1_owns_unread c harg6, r1_owns_unread c harg7]
  unfold cc1__pass2_kernel_skel owns
  iintro ⟨H0, H1, H2, H3, H4, H5, H6, ⟨%f7, %hf7, H7⟩, ⟨%f8, %hf8, H8⟩, Hk⟩
  obtain rfl := harg8.eq_unread hf7; obtain rfl := harg9.eq_unread hf8
  by_cases hc0 : cond1_0 i
  on_goal 1 => obtain ⟨rfl, rfl⟩ := hA hc0
  on_goal 2 => obtain ⟨rfl, rfl⟩ := hB hc0
  all_goals
    sl_exec (disch := first | exact hc0)
    sl_step
    iapply Hk
    iframe H0 H1 H2 H3 H4 H5 H6
    isplitl [H7]
  all_goals
    iexists _; isplitr; swap; · iassumption
    ipureintro
    first
    | try sl_unfold_words
      first
      | rw [View.read_writes_eq_canon _ _ _ (fun y => ⟨_, .head _, View.mem_set_unit_zero r1_zeros2 inb_S64x2048_S64x2048_0_0 y⟩),
          View.canon_cons_unit_zero (S := S64x2048) r1_zeros2]
      | rw [View.read_writes_eq_canon _ _ _ (fun y => ⟨_, .head _, View.mem_set_unit_zero r1_zeros2 inb_S2048x64_S2048x64_0_0 y⟩),
          View.canon_cons_unit_zero (S := S2048x64) r1_zeros2]
      simp only [View.readAt_eq_ld, harg1.read_unread, harg2.read_unread, harg3.read_unread, harg4.read_unread,
        harg5.read_unread, harg6.read_unread, harg7.read_unread, harg8.read_unread, harg9.read_unread,
        View.ld_unit_zero (S := S2000x2048) r1_zeros2, View.ld_unit_zero (S := S2000x1) r1_zeros2, View.ld_unit_zero (S := S64x2048) r1_zeros2,
        View.ld_unit_zero (S := S1x2048) r1_zeros2, View.ld_unit_zero (S := S64x64) r1_zeros2, View.ld_unit_zero (S := S1x64) r1_zeros2,
        View.ld_unit_zero (S := S2048x64) r1_zeros2,
        View.readCov_unit_zero (S := S2048x64) _ r1_zeros2, View.readCov_unit_zero (S := S64x2048) _ r1_zeros2]
    | exact harg9.read_unread _

end Cert.Kernel.Hand

end
-- ==== Proof.K.Frame1.lean ====
import proofs.«104285_g40587440947829_cont_sun_m_1101_7_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq1 (c : Dev nD) (w : Fin cfg1.W) : (dat1 V c).A w = V c (Pipeline.arrRef spec1 w) := by
  dsimp only [dat1]

theorem r1_after_7 (c : Dev nD) (t : Fin cfg1.N) : (dat1 V c).after 7 t = m2tAt V c t.val t.isLt := rfl

theorem r1_before (c : Dev nD) (w : Fin cfg1.W) (hw : w ≠ 7) (t : Fin cfg1.N) (d) : (dat1 V c).before w t d = (dat1 V c).after w t := by
  rcases w with ⟨_|_|_|_|_|_|_|_|n, hn⟩
  all_goals first
    | exact absurd rfl hw
    | exact absurd hn (Nat.not_lt.2 (Nat.le_add_left _ _))
    | exact ((dat1 V c).before_in_eq_fetched _ rfl (fun _ => rfl) (fun _ _ _ => rfl) (fun _ => rfl) t d).trans rfl

theorem r1_before_7_later (c : Dev nD) (t : Fin cfg1.N) (h0 : ¬t.val = 0) (d) :
    (dat1 V c).before 7 t d = m2tAt V c (t.val - 1) (Nat.lt_of_le_of_lt (Nat.sub_le _ _) t.isLt) := by
  have hN : t.val < 5 := lt_of_lt_of_eq t.isLt (show cfg1.N = 5 from N_1)
  rw [Dat.before_out_kept _ 7 rfl t h0 (Bool.eq_false_iff.mpr fun h => by have := (flush1_7 _).mp h; dsimp only at this; omega)
    (fun _ => rfl) (fun _ _ => rfl)]
  dsimp only [dat1]

theorem r1_m2tAt_first (c : Dev nD) (t : Fin cfg1.N) (h0 : t.val = 0) :
    m2tAt V c t.val t.isLt = k1_pay3 (Hb1 V c t) (sb1 V c t) (scr1 V c) (c2W1 V c t) (c2b1 V c t) (k1_pay1 (F := F)) := by
  obtain ⟨_|n, hn⟩ := t
  exacts [rfl, absurd h0 (Nat.succ_ne_zero n)]

theorem r1_m2tAt_later (c : Dev nD) (t : Fin cfg1.N) (h0 : ¬t.val = 0) :
    m2tAt V c t.val t.isLt = k1_pay3 (Hb1 V c t) (sb1 V c t) (scr1 V c) (c2W1 V c t) (c2b1 V c t)
      (m2tAt V c (t.val - 1) (Nat.lt_of_le_of_lt (Nat.sub_le _ _) t.isLt)) := by
  obtain ⟨_|n, hn⟩ := t
  exacts [absurd rfl h0, rfl]

theorem r1_scr_first (c : Dev nD) (t : Fin cfg1.N) (h0 : t.val = 0) :
    scr1 V c = k1_pay2 (wr1 V c t) (de1 V c t) (m1t1 V c t) := by
  obtain ⟨_|n, hn⟩ := t
  exacts [rfl, absurd h0 (Nat.succ_ne_zero n)]

theorem r1_PhiA_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

theorem r1_Phi_later (c : Dev nD) (n : ℕ) (h : n ≠ 0) :
    Phi1 V c n = iprop(owns (c : Thread nD τ) scM1 fullShare (scr1 V c) ∗ Pipeline.scopedRestBut (Ix := Unit) (Name := ℕ) (U := UR sig nD τ) (Lvl := ℕ) (Val := Elt F) spec1 c [cc1_scratch0] ∗ (∃ r, prngReg c r)) := by
  cases n with
  | zero => exact absurd rfl h
  | succ n => rfl

set_option maxHeartbeats 4000000 in
theorem r1_sound_body (c : Dev nD) (t : Fin cfg1.N) :
    iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
    ⊢ wp frame (wpE (defs₀ (F := F)) Variants.none c none) Set.univ (bodyAt1 t) (fun _ => iprop((dat1 V c).Φ t.succ ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))) := by
  unfold bodyAt1
  simp only [r1_before V c 0 (by decide), r1_before V c 1 (by decide), r1_before V c 2 (by decide), r1_before V c 3 (by decide),
    r1_before V c 4 (by decide), r1_before V c 5 (by decide), r1_before V c 6 (by decide)]
  rw [show (dat1 V c).Φ t.castSucc = Phi1 V c t.val from rfl, show (dat1 V c).Φ t.succ = Phi1 V c (t.val + 1) from rfl,
    r1_Phi_later V c (t.val + 1) (Nat.succ_ne_zero _),
    r1_after_7]
  by_cases h0 : t.val = 0
  · rw [show Phi1 V c t.val = Pipeline.ΦA spec1 c by rw [h0]; rfl, r1_PhiA_eq]
    iintro ⟨⟨⟨⟨%xs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1 c (grid1.coords t) _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t)
      _ _ _ (scr1 V c)
      (fun _ => ⟨r1_scr_first V c t h0, r1_m2tAt_first V c t h0⟩) (fun h => absurd ((hcond1_0 t).mpr h0) h) Set.univ _)
    iframe H0 H1 H2 H3 H4 H5 H6 H7 HS
    iintro ⟨H0, H1, H2, H3, H4, H5, H6, H7, HS⟩
    iframe
  · simp only [r1_before_7_later V c t h0]
    rw [r1_Phi_later V c _ h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1 c (grid1.coords t) _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t)
      _ _ _ (scr1 V c)
      (fun h => absurd ((hcond1_0 t).mp h) h0) (fun _ => ⟨rfl, r1_m2tAt_later V c t h0⟩) Set.univ _)
    iframe H0 H1 H2 H3 H4 H5 H6 H7 HS
    iintro ⟨H0, H1, H2, H3, H4, H5, H6, H7, HS⟩
    iframe

theorem body_obligation1 (c : Dev nD) : BodyObligation (dat1 (F := F) V c) (defs₀ (F := F)) Variants.none () Set.univ := fun t => by
  rw [bigSep_W1, bigSep_W1]
  exact r1_sound_body V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := by
  rw [show (dat1 V c).Φ (Fin.last cfg1.N) = Phi1 V c cfg1.N from rfl,
    r1_Phi_later V c cfg1.N (by rw [show cfg1.N = 5 from N_1]; decide), r1_PhiA_eq]
  iintro ⟨HS, HR, Hg⟩
  iframe HR Hg
  iexists _; iexact HS

end Cert.Kernel.Hand

end
-- ==== Proof.K.R2Conds.lean ====
import proofs.«104285_g40587440947829_cont_sun_m_1101_7_alg».proof.Proof.K.Dats
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev ms2_0 (t : Fin cfg2.N) := win2_0.stage (cfg2.slots t 0)
abbrev ms2_1 (t : Fin cfg2.N) := win2_1.stage (cfg2.slots t 1)
abbrev ms2_2 (t : Fin cfg2.N) := win2_2.stage (cfg2.slots t 2)
abbrev ms2_3 (t : Fin cfg2.N) := win2_3.stage (cfg2.slots t 3)
abbrev ms2_4 (t : Fin cfg2.N) := win2_4.stage (cfg2.slots t 4)
abbrev ms2_5 (t : Fin cfg2.N) := win2_5.stage (cfg2.slots t 5)
abbrev ms2_6 (t : Fin cfg2.N) := win2_6.stage (cfg2.slots t 6)
abbrev ms2_7 (t : Fin cfg2.N) := win2_7.stage (cfg2.slots t 7)

end Cert.Kernel.Hand

end
-- ==== Proof.K.R2RunA.lean ====
import proofs.«104285_g40587440947829_cont_sun_m_1101_7_alg».proof.Proof.K.R2Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r2_hz : (![0, 0] : Fin 2 → Nat) = fun _ => 0 := funext fun a => by fin_cases a <;> rfl

-- One store through the whole rectangle covers every index.
theorem r2_cover_one {Val : EltTy → Type} {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  ⟨_, List.mem_singleton_self _, View.mem_set_unit_zero h inb y⟩

end Cert.Kernel.Hand

end
-- ==== Proof.K.R2RunB.lean ====
import proofs.«104285_g40587440947829_cont_sun_m_1101_7_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernelRun2 (c : Dev nD) (i : grid2.Coords)
    (arg1 : Memref sig .tc .vmem S2000x2048 .bf16) (harg1 : arg1.IsWhole)
    (arg2 : Memref sig .tc .vmem S2000x1 .f32) (harg2 : arg2.IsWhole)
    (arg3 : Memref sig .tc .vmem S64x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S64x2 .f32) (harg6 : arg6.IsWhole)
    (arg7 : Memref sig .tc .vmem S1x2 .f32) (harg7 : arg7.IsWhole)
    (arg8 : Memref sig .tc .vmem S2000x2 .f32) (harg8 : arg8.IsWhole)
    (arg9 : Memref sig .tc .vmem S2048x64 .bf16) (harg9 : arg9.IsWhole)
    (x0 : Vec F S2000x2048 .bf16) (x1 : Vec F S2000x1 .f32) (x2 : Vec F S64x2048 .f32) (x3 : Vec F S1x2048 .f32) (x4 : Vec F S1x2048 .f32) (x5 : Vec F S64x2 .f32) (x6 : Vec F S1x2 .f32) (xs : Vec F S2048x64 .bf16)
    (E : Set ℕ) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6
        ∗ (∃ d, owns c arg8 fullShare d) ∗ owns c arg9 fullShare xs
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6
            ∗ owns c arg8 fullShare (k2_pay2 x0 x1 (if cond2_0 i then k2_pay1 x3 x4 x2 else xs) x5 x6)
            ∗ owns c arg9 fullShare (if cond2_0 i then k2_pay1 x3 x4 x2 else xs)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9) K := by
  by_cases hc0 : cond2_0 i <;> first | rw [if_pos hc0] | rw [if_neg hc0]
  all_goals
    simp only [cc2__pass3_kernel_eq_skeleton]; unfold cc2__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    subst hf0 hf1 hf2 hf3 hf4 hf5 hf6 hfs0
    sl_exec (disch := first | exact hc0)
    sl_step
    iapply Hk
    isplitl [H0]; swap; isplitl [H1]; swap; isplitl [H2]; swap; isplitl [H3]; swap; isplitl [H4]; swap
    isplitl [H5]; swap; isplitl [H6]; swap; isplitl [H7]
    all_goals
      iexists _; isplitr
      swap; · iassumption
      ipureintro
      first
      | with_reducible rfl
      | (sl_unfold_words
         rw [View.read_writes_eq_canon _ _ _ (r2_cover_one r2_hz _ _), View.canon_unit_zero r2_hz]
         simp only [View.readAt_eq_ld, View.ld_unit_zero (S := S2000x2048) r2_hz, View.ld_unit_zero (S := S2000x1) r2_hz, View.ld_unit_zero (S := S64x2048) r2_hz, View.ld_unit_zero (S := S1x2048) r2_hz, View.ld_unit_zero (S := S64x2) r2_hz, View.ld_unit_zero (S := S1x2) r2_hz, View.ld_unit_zero (S := S2048x64) r2_hz, View.readCov_unit_zero (S := S2048x64) _ r2_hz])

end Cert.Kernel.Hand

end
-- ==== Proof.K.Frame2.lean ====
import proofs.«104285_g40587440947829_cont_sun_m_1101_7_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq2 (c : Dev nD) (w : Fin cfg2.W) : (dat2 V c).A w = V c (Pipeline.arrRef spec2 w) := rfl

theorem r2_before (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> exact fun d =>
    ((dat2 V c).before_in_eq_fetched _ rfl (fun _ => rfl) (fun _ _ _ => rfl)
      (fun t => by show iblk2 V c _ t = _; unfold Dat.blockOf iblk2; rw [A_eq2]; try rfl) t d).trans
      (by unfold Dat.fetched Dat.blockOf iblk2; rw [A_eq2]; try rfl)

abbrev r2_inv (c : Dev nD) (xs : Vec F S2048x64 .bf16) : sProp 𝕄 :=
  iprop(owns c scM2 fullShare xs ∗ Pipeline.scopedRestBut (Ix := Unit) (Name := ℕ) (U := UR sig nD τ) (Lvl := ℕ) (Val := Elt F) spec2 c [cc2_scratch0] ∗ (∃ r, prngReg c r))

theorem r2_Phi_of_pos (c : Dev nD) (n : ℕ) (hz : n ≠ 0) : Phi2 V c n = r2_inv c (scr2 V c) := by
  cases n <;> first | rfl | exact absurd rfl hz

theorem r2_PhiA_eq (c : Dev nD) :
    (Pipeline.ΦA spec2 c : sProp 𝕄) = iprop(iprop((∃ d, owns c scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

theorem r2_Phi_open (c : Dev nD) (t : Fin cfg2.N) :
    Phi2 V c t.val ⊢ iprop(∃ xs : Vec F S2048x64 .bf16,
      ⌜(if cond2_0 (grid2.coords t) then k2_pay1 (iblk2 V c 3 t) (iblk2 V c 4 t) (iblk2 V c 2 t) else xs) = scr2 V c⌝ ∗ r2_inv c xs) := by
  unfold r2_inv
  by_cases h0 : t.val = 0
  · obtain rfl : t = t2z := Fin.ext h0
    rw [show Phi2 V c t2z.val = Pipeline.ΦA spec2 c from rfl, r2_PhiA_eq]
    iintro ⟨⟨⟨%d, HS⟩, HR⟩, Hg⟩
    iexists d
    iframe
    ipureintro; exact if_pos ((hcond2_0 t2z).mpr rfl)
  · rw [r2_Phi_of_pos V c _ h0]
    iintro H
    iexists _
    isplitr; · ipureintro; exact if_neg fun h => h0 ((hcond2_0 t).mp h)
    iexact H

set_option maxHeartbeats 4800000 in
theorem r2_sound_body (c : Dev nD) (t : Fin cfg2.N) :
    iprop(Phi2 V c t.val ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d))
      ∗ (∃ d, owns c (ms2_4 t) fullShare ((dat2 V c).before 4 t d))
      ∗ (∃ d, owns c (ms2_5 t) fullShare ((dat2 V c).before 5 t d))
      ∗ (∃ d, owns c (ms2_6 t) fullShare ((dat2 V c).before 6 t d))
      ∗ (∃ d, owns c (ms2_7 t) fullShare ((dat2 V c).before 7 t d)))
    ⊢ wp frame (wpE (defs₀ (F := F)) Variants.none c none) Set.univ (bodyAt2 t) (fun _ =>
      iprop(r2_inv c (scr2 V c) ∗ (dat2 V c).owesAt () t.castSucc
      ∗ owns c (ms2_0 t) fullShare (iblk2 V c 0 t)
      ∗ owns c (ms2_1 t) fullShare (iblk2 V c 1 t)
      ∗ owns c (ms2_2 t) fullShare (iblk2 V c 2 t)
      ∗ owns c (ms2_3 t) fullShare (iblk2 V c 3 t)
      ∗ owns c (ms2_4 t) fullShare (iblk2 V c 4 t)
      ∗ owns c (ms2_5 t) fullShare (iblk2 V c 5 t)
      ∗ owns c (ms2_6 t) fullShare (iblk2 V c 6 t)
      ∗ owns c (ms2_7 t) fullShare (k2_pay2 (iblk2 V c 0 t) (iblk2 V c 1 t) (scr2 V c) (iblk2 V c 5 t) (iblk2 V c 6 t)))) := by
  unfold bodyAt2 r2_inv
  simp only [r2_before V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨%xs, %hS, HS, HR, Hg⟩ := (r2_Phi_open V c t) $$ HΦ
  iapply kernelRun2 (xs := xs)
  iframe H0 H1 H2 H3 H4 H5 H6 HS
  rw [hS]
  isplitl [H7]; · iexists _; iexact H7
  iintro ⟨H0, H1, H2, H3, H4, H5, H6, H7, HS⟩
  iframe

theorem body_obligation2 (c : Dev nD) : BodyObligation (dat2 (F := F) V c) (defs₀ (F := F)) Variants.none () Set.univ := fun t => by
  rw [bigSep_W2, bigSep_W2]
  exact r2_sound_body V c t

theorem hin2 (c : Dev nD) : (Pipeline.ΦA spec2 c : sProp 𝕄) ⊢ (dat2 V c).Φ 0 :=
  Entails.refl _

theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val from rfl,
    r2_Phi_of_pos V c _ (by decide), r2_PhiA_eq]
  iintro ⟨HS, HR, Hg⟩
  iframe HR Hg
  iexists _; iexact HS

end Cert.Kernel.Hand

end
-- ==== Proof.K.Launch.lean ====
import proofs.«104285_g40587440947829_cont_sun_m_1101_7_alg».proof.Proof.K.Frame0
import proofs.«104285_g40587440947829_cont_sun_m_1101_7_alg».proof.Proof.K.Frame1
import proofs.«104285_g40587440947829_cont_sun_m_1101_7_alg».proof.Proof.K.Frame2
import proofs.«104285_g40587440947829_cont_sun_m_1101_7_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bnd0 (c : Dev nD) : Valuation τ sig (Elt F) := fun b => m (c, b)

abbrev bnd1 (c : Dev nD) : Valuation τ sig (Elt F) := StableHlo.after hostOps0 (bnd0 m c)
abbrev ent1 : (c : Dev nD) → (b : Ref sig .tc) → Buf (Elt F) ((c : Thread nD τ).loc b) := fun c b => bnd1 m c b

def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
theorem left0_arr (c : Dev nD) (w : Fin cfg0.W) : (dat0 (ent1 m) c).arrAt w cfg0.N = (fun b : Ref sig .tc => bnd2 m c b) (Pipeline.arrRef spec0 w) :=
  (bnd2_arr m c w).symm
theorem left0_rest (c : Dev nD) : ∀ b, b ∉ Finset.univ.image (Pipeline.arrRef spec0) → (fun b : Ref sig .tc => bnd2 m c b) b = ent1 m c b :=
  fun b hb => bnd2_of_ne m c b fun w e => hb (Finset.mem_image.mpr ⟨w, Finset.mem_univ _, e⟩)

abbrev bnd3 (c : Dev nD) : Valuation τ sig (Elt F) := StableHlo.after hostOps1 (bnd2 m c)
abbrev ent3 : (c : Dev nD) → (b : Ref sig .tc) → Buf (Elt F) ((c : Thread nD τ).loc b) := fun c b => bnd3 m c b

def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
theorem left1_arr (c : Dev nD) (w : Fin cfg1.W) : (dat1 (ent3 m) c).arrAt w cfg1.N = (fun b : Ref sig .tc => bnd4 m c b) (Pipeline.arrRef spec1 w) :=
  (bnd4_arr m c w).symm
theorem left1_rest (c : Dev nD) : ∀ b, b ∉ Finset.univ.image (Pipeline.arrRef spec1) → (fun b : Ref sig .tc => bnd4 m c b) b = ent3 m c b :=
  fun b hb => bnd4_of_ne m c b fun w e => hb (Finset.mem_image.mpr ⟨w, Finset.mem_univ _, e⟩)

abbrev bnd5 (c : Dev nD) : Valuation τ sig (Elt F) := StableHlo.after hostOps2 (bnd4 m c)
abbrev ent5 : (c : Dev nD) → (b : Ref sig .tc) → Buf (Elt F) ((c : Thread nD τ).loc b) := fun c b => bnd5 m c b

def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
theorem left2_arr (c : Dev nD) (w : Fin cfg2.W) : (dat2 (ent5 m) c).arrAt w cfg2.N = (fun b : Ref sig .tc => bnd6 m c b) (Pipeline.arrRef spec2 w) :=
  (bnd6_arr m c w).symm
theorem left2_rest (c : Dev nD) : ∀ b, b ∉ Finset.univ.image (Pipeline.arrRef spec2) → (fun b : Ref sig .tc => bnd6 m c b) b = ent5 m c b :=
  fun b hb => bnd6_of_ne m c b fun w e => hb (Finset.mem_image.mpr ⟨w, Finset.mem_univ _, e⟩)

theorem withArrays_kept {gr W : ℕ} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb; exact (Pipeline.withArrays_arr win hinj c V A w).trans (h w rfl)
  · exact Pipeline.withArrays_of_ne win c V A b fun w e => hb ⟨w, e⟩

/-- No later item writes `b`: the two later host stretches do not, and calls 1 and 2 see it through an input window or not at all. -/
abbrev KeptLate (b : Ref sig .tc) : Prop :=
  (∀ w, Pipeline.arrRef spec1 w = b → (cfg1.win w).isOut = false) ∧ (∀ w, Pipeline.arrRef spec2 w = b → (cfg2.win w).isOut = false)
    ∧ b ∉ hostOps1_W ∧ b ∉ hostOps2_W
/-- No item at all writes `b`. -/
abbrev Kept (b : Ref sig .tc) : Prop :=
  (∀ w, Pipeline.arrRef spec0 w = b → (cfg0.win w).isOut = false) ∧ b ∉ hostOps0_W ∧ KeptLate b

theorem bnd6_eq_bnd2 (c : Dev nD) (b : Ref sig .tc) (h : KeptLate b) : bnd6 m c (Proc.devRef .tc b) = bnd2 m c (Proc.devRef .tc b) :=
  calc bnd6 m c (Proc.devRef .tc b)
    _ = bnd5 m c (Proc.devRef .tc b) := withArrays_kept spec2 launch2.win.arr_inj c _ _ b fun w e =>
          ((dat2 (ent5 m) c).arrAt_in w (h.2.1 w e) _).trans (A_eq2 (ent5 m) c w)
    _ = bnd4 m c (Proc.devRef .tc b) := StableHlo.after_of_writes_sub hostOps2 _ hostOps2_writes h.2.2.2
    _ = bnd3 m c (Proc.devRef .tc b) := withArrays_kept spec1 launch1.win.arr_inj c _ _ b fun w e =>
          ((dat1 (ent3 m) c).arrAt_in w (h.1 w e) _).trans (A_eq1 (ent3 m) c w)
    _ = bnd2 m c (Proc.devRef .tc b) := StableHlo.after_of_writes_sub hostOps1 _ hostOps1_writes h.2.2.1

theorem bnd6_kept (c : Dev nD) (b : Ref sig .tc) (h : Kept b) : bnd6 m c (Proc.devRef .tc b) = m ((c : Thread nD τ).loc b) :=
  calc bnd6 m c (Proc.devRef .tc b)
    _ = bnd2 m c (Proc.devRef .tc b) := bnd6_eq_bnd2 m c b h.2.2
    _ = bnd1 m c (Proc.devRef .tc b) := withArrays_kept spec0 launch0.win.arr_inj c _ _ b fun w e =>
          ((dat0 (ent1 m) c).arrAt_in w (h.1 w e) _).trans (A_eq0 (ent1 m) c w)
    _ = bnd0 m c (Proc.devRef .tc b) := StableHlo.after_of_writes_sub hostOps0 _ hostOps0_writes h.2.1

def pdat : (p : Fin 3) → (c : Dev nD) → Dat τ (Elt F) Unit ℕ (UR sig nD τ) ℕ (Pipeline.pin (pcfgs (F := F)) adm p) c
  | ⟨0, _⟩ => fun c => dat0 (ent1 m) c
  | ⟨1, _⟩ => fun c => dat1 (ent3 m) c
  | ⟨2, _⟩ => fun c => dat2 (ent5 m) c
abbrev noVar : Variants := Variants.none

abbrev noL : GSem nD τ sig → Finset Unit := fun _ => ∅
abbrev noLv : GSem nD τ sig → Unit → ℕ := fun _ _ => 0

abbrev ride (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev lastState (c : Dev nD) : sProp 𝕄 := iprop(StableHlo.held (c : Thread nD τ) (Pipeline.ucRefs τ sig) (bnd6 m c) ∗ ∃ r, prngReg c r)

theorem toPhiA {gr W : ℕ} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ (Pipeline.ΦA win c : sProp 𝕄) := by
  unfold Pipeline.ΦA
  iintro ⟨Hp, -, Hr⟩
  isplitl [Hr]; · iexact Hr
  iexact Hp

theorem ofPhiA {gr W : ℕ} (win : Fin W → Pipeline.WinSpec sig gr) (c : Dev nD) :
    (Pipeline.ΦA win c : sProp 𝕄)
      ⊢ (iprop((∃ r, prngReg c r) ∗ BI.emp ∗ Pipeline.scopedRest (Ix := Unit) (Name := ℕ) (U := UR sig nD τ) (Lvl := ℕ) (Val := Elt F) win c) : sProp 𝕄) := by
  unfold Pipeline.ΦA
  iintro ⟨Hr, Hp⟩
  isplitl [Hp]; · iexact Hp
  isplitr; · iempintro
  iexact Hr

set_option backward.isDefEq.respectTransparency.types false in

def callSeg0 : Pipeline.RegionSeg (pcfgs (F := F)) adm (pdat m) () defs₀ noVar noL noLv 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ noL noLv 0 fun _ _ => rfl
  pre c := iprop(StableHlo.held (c : Thread nD τ) (Pipeline.ucRefs τ sig) (bnd1 m c) ∗ ride c)
  post c := iprop(StableHlo.held (c : Thread nD τ) (Pipeline.ucRefs τ sig) (bnd2 m c) ∗ ride c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin0 (ent1 m) c)
  hout c := by
    rw [Pipeline.ownSems0_none]
    exact (hout0 (ent1 m) c).trans (ofPhiA _ c)
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (ent1 m c) (fun b => bnd2 m c b) ((pdat m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def callSeg1 : Pipeline.RegionSeg (pcfgs (F := F)) adm (pdat m) () defs₀ noVar noL noLv 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ noL noLv 1 fun _ _ => rfl
  pre c := iprop(StableHlo.held (c : Thread nD τ) (Pipeline.ucRefs τ sig) (bnd3 m c) ∗ ride c)
  post c := iprop(StableHlo.held (c : Thread nD τ) (Pipeline.ucRefs τ sig) (bnd4 m c) ∗ ride c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin1 (ent3 m) c)
  hout c := by
    rw [Pipeline.ownSems0_none]
    exact (hout1 (ent3 m) c).trans (ofPhiA _ c)
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (ent3 m c) (fun b => bnd4 m c b) ((pdat m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def callSeg2 : Pipeline.RegionSeg (pcfgs (F := F)) adm (pdat m) () defs₀ noVar noL noLv 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ noL noLv 2 fun _ _ => rfl
  pre c := iprop(StableHlo.held (c : Thread nD τ) (Pipeline.ucRefs τ sig) (bnd5 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) adm (pdat m) launch2.win launch2.arr_whole c
      ((pdat m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin2 (ent5 m) c)
  hout c := by
    rw [Pipeline.ownSems0_none]
    exact (hout2 (ent5 m) c).trans (ofPhiA _ c)
  hexit c := by
    have hjoin := Pipeline.unscopedBufs_of_arrays (p := 2) (pcfgs (F := F)) adm (Ix := Unit) (Name := ℕ) (U := UR sig nD τ) (Lvl := ℕ)
      launch2.win launch2.arr_whole c (pdat m) ((pdat m 2 c).share_full fun _ => rfl)
      (ent5 m c) (fun b => bnd6 m c b) ((pdat m 2 c).arrAt · cfg2.N) (left2_arr m c) (left2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev mainSegs : List (Pipeline.Seg (pcfgs (F := F)) adm (pdat m) () defs₀ noVar noL noLv) :=
  [ .host (hostSeg hostOps0 hostOps0_sub hostOps0_fresh (bnd0 m)),
    .region (callSeg0 m),
    .host (hostSeg hostOps1 hostOps1_sub hostOps1_fresh (bnd2 m)),
    .region (callSeg1 m),
    .host (hostSeg hostOps2 hostOps2_sub hostOps2_fresh (bnd4 m)),
    .region (callSeg2 m) ]

theorem main_run (c : Dev nD) : main (F := F) c = Pipeline.Seg.run (mainSegs m) := (main_chain c).trans (by chain_rfl)

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = bnd6 m c b) :=
  Pipeline.θ_run_regions_kit (pcfgs (F := F)) adm (pdat m) () cellOf_inj emb₁ defs₀ noVar noL noLv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ ride c)) (Tₙ := lastState m)
    (hch := ⟨fun _ => .rfl, fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd6 m c b)
    (hfin := fun c s' => by
      iintro ⟨⟨Hh, -⟩, HSI⟩
      unfold StableHlo.held
      imodintro
      iapply (pointsTo_read_all (Pipeline.ucRefs τ sig) (fun b => (((c : Thread nD τ)).1, b)) (bnd6 m c) s')
      isplitl [Hh] <;> iassumption)
    (hQ := fun _ h => h)

/-- The logits end at call 2's output array, the gate at call 0's first, and every argument as launched. -/
theorem run_results : θ_run defs (onTc (τ := τ) (main (F := F))) ⟨m, fun _ => 0, ρ⟩ (fun r => ∀ c : Dev nD,
      r.2.mem ((c.tc : Thread nD τ).loc main_v12) = (dat2 (ent5 m) c).arrAt 7 cfg2.N
      ∧ r.2.mem ((c.tc : Thread nD τ).loc main_v7_0) = (dat0 (ent1 m) c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    have k (b : Ref sig .tc) (hu : ¬ (Proc.devRef .tc b : DevRef τ sig).isScoped) (hk : Kept b) :
        r.2.mem ((c.tc : Thread nD τ).loc b) = m ((c.tc : Thread nD τ).loc b) := (h c _ (mem_uc b hu)).trans (bnd6_kept m c b hk)
    ⟨(h c _ (mem_uc main_v12 (by decide))).trans (bnd6_arr m c 7),
     (h c _ (mem_uc main_v7_0 (by decide))).trans ((bnd6_eq_bnd2 m c main_v7_0 (by decide)).trans (bnd2_arr m c 14)),
     k main_arg0 (by decide) (by decide),
     k main_arg1 (by decide) (by decide),
     k main_arg2 (by decide) (by decide),
     k main_arg3 (by decide) (by decide),
     k main_arg4 (by decide) (by decide),
     k main_arg5 (by decide) (by decide),
     k main_arg6 (by decide) (by decide),
     k main_arg7 (by decide) (by decide),
     k main_arg8 (by decide) (by decide),
     k main_arg9 (by decide) (by decide),
     k main_arg10 (by decide) (by decide),
     k main_arg11 (by decide) (by decide),
     k main_arg12 (by decide) (by decide),
     k main_arg13 (by decide) (by decide),
     k main_arg14 (by decide) (by decide),
     k main_arg15 (by decide) (by decide),
     k main_arg16 (by decide) (by decide),
     k main_arg17 (by decide) (by decide)⟩) (run_main m ρ)

end Cert.Kernel.Hand

end
-- ==== Proof.KI.Dats.lean ====
import proofs.«104285_g40587440947829_cont_sun_m_1101_7_alg».proof.Proof.Gen.KernelIdeal.Launch
import proofs.«104285_g40587440947829_cont_sun_m_1101_7_alg».proof.Proof.Gen.KernelIdeal.Skeleton
import proofs.«104285_g40587440947829_cont_sun_m_1101_7_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Hb0 (c : Dev nD) (t : Fin cfg0.N) : Vec F S1000x2048 .f32 := iblk0 V c 0 t
abbrev xb0 (c : Dev nD) (t : Fin cfg0.N) : Vec F S1000x128 .f32 := iblk0 V c 1 t
abbrev zb0 (c : Dev nD) (t : Fin cfg0.N) : Vec F S1000x16 .f32 := iblk0 V c 2 t
abbrev wb0 (c : Dev nD) (t : Fin cfg0.N) : Vec F S2048x1 .bf16 := iblk0 V c 3 t
abbrev psiW0 (c : Dev nD) (t : Fin cfg0.N) : Vec F S128x32 .f32 := iblk0 V c 4 t
abbrev psib0 (c : Dev nD) (t : Fin cfg0.N) : Vec F S1x32 .f32 := iblk0 V c 5 t
abbrev phiW0 (c : Dev nD) (t : Fin cfg0.N) : Vec F S16x32 .f32 := iblk0 V c 6 t
abbrev phib0 (c : Dev nD) (t : Fin cfg0.N) : Vec F S1x32 .f32 := iblk0 V c 7 t
abbrev g1W0 (c : Dev nD) (t : Fin cfg0.N) : Vec F S64x64 .f32 := iblk0 V c 8 t
abbrev g1b0 (c : Dev nD) (t : Fin cfg0.N) : Vec F S1x64 .f32 := iblk0 V c 9 t
abbrev g2W0 (c : Dev nD) (t : Fin cfg0.N) : Vec F S64x32 .f32 := iblk0 V c 10 t
abbrev g2b0 (c : Dev nD) (t : Fin cfg0.N) : Vec F S1x32 .f32 := iblk0 V c 11 t
abbrev c1W0 (c : Dev nD) (t : Fin cfg0.N) : Vec F S32x64 .f32 := iblk0 V c 12 t
abbrev c1b0 (c : Dev nD) (t : Fin cfg0.N) : Vec F S1x64 .f32 := iblk0 V c 13 t

def x1At (c : Dev nD) (t : Fin cfg0.N) : FVec F S1000x32 .f32 := k0_pay7 (xb0 V c t) (psiW0 V c t) (psib0 V c t)

def gAt (c : Dev nD) (t : Fin cfg0.N) : FVec F S1000x32 .f32 :=
  k0_pay9 (x1At V c t) (zb0 V c t) (phiW0 V c t) (phib0 V c t) (g1W0 V c t) (g1b0 V c t) (g2W0 V c t) (g2b0 V c t)

def sAt (c : Dev nD) (t : Fin cfg0.N) : FVec F S1000x1 .f32 := k0_pay5 (Hb0 V c t) (wb0 V c t)

def hAt (c : Dev nD) (t : Fin cfg0.N) : FVec F S1000x2048 .bf16 := k0_pay4 (Hb0 V c t)

def xn1At (c : Dev nD) (t : Fin cfg0.N) : FVec F S1000x64 .f32 :=
  k0_pay10 (sAt V c t) (x1At V c t) (zb0 V c t) (phiW0 V c t) (phib0 V c t) (g1W0 V c t) (g1b0 V c t) (g2W0 V c t) (g2b0 V c t) (c1W0 V c t) (c1b0 V c t)

def deAt (c : Dev nD) : (n : ℕ) → n < cfg0.N → FVec F S1x2048 .f32
  | 0, h => k0_pay6 (Hb0 V c ⟨0, h⟩) k0_pay2
  | n + 1, h => k0_pay6 (Hb0 V c ⟨n + 1, h⟩) (deAt c n (Nat.lt_of_succ_lt h))

def m1tAt (c : Dev nD) : (n : ℕ) → n < cfg0.N → FVec F S64x2048 .f32
  | 0, h => k0_pay1 (hAt V c ⟨0, h⟩) (xn1At V c ⟨0, h⟩) k0_pay3
  | n + 1, h => k0_pay1 (hAt V c ⟨n + 1, h⟩) (xn1At V c ⟨n + 1, h⟩) (m1tAt c n (Nat.lt_of_succ_lt h))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => gAt V c t
    | ⟨15, _⟩ => sAt V c t
    | ⟨16, _⟩ => deAt V c t.val t.isLt
    | ⟨17, _⟩ => m1tAt V c t.val t.isLt
    | ⟨18, _⟩ => hAt V c t
    | ⟨_ + 19, h⟩ => absurd h (Nat.not_lt.2 (Nat.le_add_left _ _))
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Hb1 (c : Dev nD) (t : Fin cfg1.N) : Vec F S2000x2048 .bf16 := iblk1 V c 0 t
abbrev sb1 (c : Dev nD) (t : Fin cfg1.N) : Vec F S2000x1 .f32 := iblk1 V c 1 t
abbrev m1t1 (c : Dev nD) (t : Fin cfg1.N) : Vec F S64x2048 .f32 := iblk1 V c 2 t
abbrev wr1 (c : Dev nD) (t : Fin cfg1.N) : Vec F S1x2048 .f32 := iblk1 V c 3 t
abbrev de1 (c : Dev nD) (t : Fin cfg1.N) : Vec F S1x2048 .f32 := iblk1 V c 4 t
abbrev c2W1 (c : Dev nD) (t : Fin cfg1.N) : Vec F S64x64 .f32 := iblk1 V c 5 t
abbrev c2b1 (c : Dev nD) (t : Fin cfg1.N) : Vec F S1x64 .f32 := iblk1 V c 6 t

def t1z : Fin cfg1.N := ⟨0, by rw [show cfg1.N = 5 from N_1]; decide⟩

def scr1 (c : Dev nD) : FVec F S2048x64 .bf16 := k1_pay2 (wr1 V c t1z) (de1 V c t1z) (m1t1 V c t1z)

def m2tAt (c : Dev nD) : (n : ℕ) → n < cfg1.N → FVec F S64x2048 .f32
  | 0, h => k1_pay3 (Hb1 V c ⟨0, h⟩) (sb1 V c ⟨0, h⟩) (scr1 V c) (c2W1 V c ⟨0, h⟩) (c2b1 V c ⟨0, h⟩) k1_pay1
  | n + 1, h => k1_pay3 (Hb1 V c ⟨n + 1, h⟩) (sb1 V c ⟨n + 1, h⟩) (scr1 V c) (c2W1 V c ⟨n + 1, h⟩) (c2b1 V c ⟨n + 1, h⟩) (m2tAt c n (Nat.lt_of_succ_lt h))

abbrev scM1 : Memref sig .tc .vmem S2048x64 .bf16 := Memref.whole cc1_scratch0

def Phi1 (c : Dev nD) : (n : ℕ) → sProp 𝕄
  | 0 => Pipeline.ΦA spec1 c
  | _ + 1 => iprop(owns (c : Thread nD τ) scM1 fullShare (scr1 V c)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => m2tAt V c t.val t.isLt
  Φ t := Phi1 V c t.val
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev Hb2 (c : Dev nD) (t : Fin cfg2.N) : Vec F S2000x2048 .bf16 := iblk2 V c 0 t
abbrev sb2 (c : Dev nD) (t : Fin cfg2.N) : Vec F S2000x1 .f32 := iblk2 V c 1 t
abbrev m2t2 (c : Dev nD) (t : Fin cfg2.N) : Vec F S64x2048 .f32 := iblk2 V c 2 t
abbrev wr2 (c : Dev nD) (t : Fin cfg2.N) : Vec F S1x2048 .f32 := iblk2 V c 3 t
abbrev de2 (c : Dev nD) (t : Fin cfg2.N) : Vec F S1x2048 .f32 := iblk2 V c 4 t
abbrev hdW2 (c : Dev nD) (t : Fin cfg2.N) : Vec F S64x2 .f32 := iblk2 V c 5 t
abbrev hdb2 (c : Dev nD) (t : Fin cfg2.N) : Vec F S1x2 .f32 := iblk2 V c 6 t

def t2z : Fin cfg2.N := ⟨0, by rw [show cfg2.N = 5 from N_2]; decide⟩

def scr2 (c : Dev nD) : FVec F S2048x64 .bf16 := k2_pay1 (wr2 V c t2z) (de2 V c t2z) (m2t2 V c t2z)

def outAt (c : Dev nD) (t : Fin cfg2.N) : FVec F S2000x2 .f32 :=
  k2_pay2 (Hb2 V c t) (sb2 V c t) (scr2 V c) (hdW2 V c t) (hdb2 V c t)

abbrev scM2 : Memref sig .tc .vmem S2048x64 .bf16 := Memref.whole cc2_scratch0

def Phi2 (c : Dev nD) : (n : ℕ) → sProp 𝕄
  | 0 => Pipeline.ΦA spec2 c
  | _ + 1 => iprop(owns (c : Thread nD τ) scM2 fullShare (scr2 V c)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt V c t
  Φ t := Phi2 V c t.val
  q _ := fullShare
  owed _ := 0

end Cert.KernelIdeal.Hand

end
-- ==== Proof.KI.R0Conds.lean ====
import proofs.«104285_g40587440947829_cont_sun_m_1101_7_alg».proof.Proof.KI.Dats
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

theorem r0_hz : (![0, 0] : Fin 2 → Nat) = fun _ => 0 := funext fun a => by fin_cases a <;> rfl

theorem r0_read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

theorem r0_readAt_whole {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

end Cert.KernelIdeal.Hand

end
-- ==== Proof.KI.R0RunB.lean ====
import proofs.«104285_g40587440947829_cont_sun_m_1101_7_alg».proof.Proof.KI.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun0_B (c : Dev nD) (i : grid0.Coords) (arg1 : Memref sig .tc .vmem S1000x2048 .f32) (harg1 : arg1.IsWhole) (arg2 : Memref sig .tc .vmem S1000x128 .f32) (harg2 : arg2.IsWhole) (arg3 : Memref sig .tc .vmem S1000x16 .f32) (harg3 : arg3.IsWhole) (arg4 : Memref sig .tc .vmem S2048x1 .bf16) (harg4 : arg4.IsWhole) (arg5 : Memref sig .tc .vmem S128x32 .f32) (harg5 : arg5.IsWhole) (arg6 : Memref sig .tc .vmem S1x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x64 .f32) (harg14 : arg14.IsWhole) (arg15 : Memref sig .tc .vmem S1000x32 .f32) (harg15 : arg15.IsWhole) (arg16 : Memref sig .tc .vmem S1000x1 .f32) (harg16 : arg16.IsWhole) (arg17 : Memref sig .tc .vmem S1x2048 .f32) (harg17 : arg17.IsWhole) (arg18 : Memref sig .tc .vmem S64x2048 .f32) (harg18 : arg18.IsWhole) (arg19 : Memref sig .tc .vmem S1000x2048 .bf16) (harg19 : arg19.IsWhole) (hc0 : ¬cond0_0 i)
    (x0 : Vec F S1000x2048 .f32) (x1 : Vec F S1000x128 .f32) (x2 : Vec F S1000x16 .f32) (x3 : Vec F S2048x1 .bf16) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xd : Vec F S1x2048 .f32) (xm : Vec F S64x2048 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ (∃ d, owns (c : Thread nD τ) arg15 fullShare d)
            ∗ (∃ d, owns (c : Thread nD τ) arg16 fullShare d)
            ∗ owns (c : Thread nD τ) arg17 fullShare xd
            ∗ owns (c : Thread nD τ) arg18 fullShare xm
            ∗ (∃ d, owns (c : Thread nD τ) arg19 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ owns (c : Thread nD τ) arg11 fullShare x10
                ∗ owns (c : Thread nD τ) arg12 fullShare x11
                ∗ owns (c : Thread nD τ) arg13 fullShare x12
                ∗ owns (c : Thread nD τ) arg14 fullShare x13
                ∗ owns (c : Thread nD τ) arg15 fullShare (k0_pay9 (k0_pay7 x1 x4 x5) x2 x6 x7 x8 x9 x10 x11)
                ∗ owns (c : Thread nD τ) arg16 fullShare (k0_pay5 x0 x3)
                ∗ owns (c : Thread nD τ) arg17 fullShare (k0_pay6 x0 xd)
                ∗ owns (c : Thread nD τ) arg18 fullShare (k0_pay1 (k0_pay4 x0) (k0_pay10 (k0_pay5 x0 x3) (k0_pay7 x1 x4 x5) x2 x6 x7 x8 x9 x10 x11 x12 x13) xm)
                ∗ owns (c : Thread nD τ) arg19 fullShare (k0_pay4 x0)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg18.eq_unread hf17
    sl_exec (disch := first | exact hc0)
    sl_step
    iapply Hk
    isplitl [H0]; iexists _; isplitr; swap; iexact H0; ipureintro; exact hf0
    isplitl [H1]; iexists _; isplitr; swap; iexact H1; ipureintro; exact hf1
    isplitl [H2]; iexists _; isplitr; swap; iexact H2; ipureintro; exact hf2
    isplitl [H3]; iexists _; isplitr; swap; iexact H3; ipureintro; exact hf3
    isplitl [H4]; iexists _; isplitr; swap; iexact H4; ipureintro; exact hf4
    isplitl [H5]; iexists _; isplitr; swap; iexact H5; ipureintro; exact hf5
    isplitl [H6]; iexists _; isplitr; swap; iexact H6; ipureintro; exact hf6
    isplitl [H7]; iexists _; isplitr; swap; iexact H7; ipureintro; exact hf7
    isplitl [H8]; iexists _; isplitr; swap; iexact H8; ipureintro; exact hf8
    isplitl [H9]; iexists _; isplitr; swap; iexact H9; ipureintro; exact hf9
    isplitl [H10]; iexists _; isplitr; swap; iexact H10; ipureintro; exact hf10
    isplitl [H11]; iexists _; isplitr; swap; iexact H11; ipureintro; exact hf11
    isplitl [H12]; iexists _; isplitr; swap; iexact H12; ipureintro; exact hf12
    isplitl [H13]; iexists _; isplitr; swap; iexact H13; ipureintro; exact hf13
    isplitl [H14]; iexists _; isplitr; swap; iexact H14; ipureintro; rotate_left
    isplitl [H15]; iexists _; isplitr; swap; iexact H15; ipureintro; rotate_left
    isplitl [H16]; iexists _; isplitr; swap; iexact H16; ipureintro; rotate_left
    isplitl [H17]; iexists _; isplitr; swap; iexact H17; ipureintro; rotate_left
    iexists _; isplitr; swap; iexact H18; ipureintro
    all_goals
      refine (r0_read_writes_whole _ _ r0_hz _ _ _).trans ?_
      sl_unfold_words
      simp only [r0_readAt_whole _ harg1 r0_hz, r0_readAt_whole _ harg2 r0_hz, r0_readAt_whole _ harg3 r0_hz, r0_readAt_whole _ harg4 r0_hz, r0_readAt_whole _ harg5 r0_hz, r0_readAt_whole _ harg6 r0_hz, r0_readAt_whole _ harg7 r0_hz, r0_readAt_whole _ harg8 r0_hz, r0_readAt_whole _ harg9 r0_hz, r0_readAt_whole _ harg10 r0_hz, r0_readAt_whole _ harg11 r0_hz, r0_readAt_whole _ harg12 r0_hz, r0_readAt_whole _ harg13 r0_hz, r0_readAt_whole _ harg14 r0_hz, r0_readAt_whole _ harg17 r0_hz, r0_readAt_whole _ harg18 r0_hz]

end Cert.KernelIdeal.Hand

end
-- ==== Proof.KI.R0RunA.lean ====
import proofs.«104285_g40587440947829_cont_sun_m_1101_7_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun0_A (c : Dev nD) (i : grid0.Coords) (arg1 : Memref sig .tc .vmem S1000x2048 .f32) (harg1 : arg1.IsWhole) (arg2 : Memref sig .tc .vmem S1000x128 .f32) (harg2 : arg2.IsWhole) (arg3 : Memref sig .tc .vmem S1000x16 .f32) (harg3 : arg3.IsWhole) (arg4 : Memref sig .tc .vmem S2048x1 .bf16) (harg4 : arg4.IsWhole) (arg5 : Memref sig .tc .vmem S128x32 .f32) (harg5 : arg5.IsWhole) (arg6 : Memref sig .tc .vmem S1x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x64 .f32) (harg13 : arg13.IsWhole) (arg14 : Memref sig .tc .vmem S1x64 .f32) (harg14 : arg14.IsWhole) (arg15 : Memref sig .tc .vmem S1000x32 .f32) (harg15 : arg15.IsWhole) (arg16 : Memref sig .tc .vmem S1000x1 .f32) (harg16 : arg16.IsWhole) (arg17 : Memref sig .tc .vmem S1x2048 .f32) (harg17 : arg17.IsWhole) (arg18 : Memref sig .tc .vmem S64x2048 .f32) (harg18 : arg18.IsWhole) (arg19 : Memref sig .tc .vmem S1000x2048 .bf16) (harg19 : arg19.IsWhole) (hc0 : cond0_0 i)
    (x0 : Vec F S1000x2048 .f32) (x1 : Vec F S1000x128 .f32) (x2 : Vec F S1000x16 .f32) (x3 : Vec F S2048x1 .bf16) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ owns (c : Thread nD τ) arg11 fullShare x10
                ∗ owns (c : Thread nD τ) arg12 fullShare x11
                ∗ owns (c : Thread nD τ) arg13 fullShare x12
                ∗ owns (c : Thread nD τ) arg14 fullShare x13
                ∗ owns (c : Thread nD τ) arg15 fullShare (k0_pay9 (k0_pay7 x1 x4 x5) x2 x6 x7 x8 x9 x10 x11)
                ∗ owns (c : Thread nD τ) arg16 fullShare (k0_pay5 x0 x3)
                ∗ owns (c : Thread nD τ) arg17 fullShare (k0_pay6 x0 (k0_pay2 (F := F)))
                ∗ owns (c : Thread nD τ) arg18 fullShare (k0_pay1 (k0_pay4 x0) (k0_pay10 (k0_pay5 x0 x3) (k0_pay7 x1 x4 x5) x2 x6 x7 x8 x9 x10 x11 x12 x13) (k0_pay3 (F := F)))
                ∗ owns (c : Thread nD τ) arg19 fullShare (k0_pay4 x0)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | exact hc0)
    sl_step
    iapply Hk
    isplitl [H0]; iexists _; isplitr; swap; iexact H0; ipureintro; exact hf0
    isplitl [H1]; iexists _; isplitr; swap; iexact H1; ipureintro; exact hf1
    isplitl [H2]; iexists _; isplitr; swap; iexact H2; ipureintro; exact hf2
    isplitl [H3]; iexists _; isplitr; swap; iexact H3; ipureintro; exact hf3
    isplitl [H4]; iexists _; isplitr; swap; iexact H4; ipureintro; exact hf4
    isplitl [H5]; iexists _; isplitr; swap; iexact H5; ipureintro; exact hf5
    isplitl [H6]; iexists _; isplitr; swap; iexact H6; ipureintro; exact hf6
    isplitl [H7]; iexists _; isplitr; swap; iexact H7; ipureintro; exact hf7
    isplitl [H8]; iexists _; isplitr; swap; iexact H8; ipureintro; exact hf8
    isplitl [H9]; iexists _; isplitr; swap; iexact H9; ipureintro; exact hf9
    isplitl [H10]; iexists _; isplitr; swap; iexact H10; ipureintro; exact hf10
    isplitl [H11]; iexists _; isplitr; swap; iexact H11; ipureintro; exact hf11
    isplitl [H12]; iexists _; isplitr; swap; iexact H12; ipureintro; exact hf12
    isplitl [H13]; iexists _; isplitr; swap; iexact H13; ipureintro; exact hf13
    isplitl [H14]; iexists _; isplitr; swap; iexact H14; ipureintro; rotate_left
    isplitl [H15]; iexists _; isplitr; swap; iexact H15; ipureintro; rotate_left
    isplitl [H16]; iexists _; isplitr; swap; iexact H16; ipureintro; rotate_left
    isplitl [H17]; iexists _; isplitr; swap; iexact H17; ipureintro; rotate_left
    iexists _; isplitr; swap; iexact H18; ipureintro
    all_goals
      refine (r0_read_writes_whole _ _ r0_hz _ _ _).trans ?_
      sl_unfold_words
      simp only [r0_readAt_whole _ harg1 r0_hz, r0_readAt_whole _ harg2 r0_hz, r0_readAt_whole _ harg3 r0_hz, r0_readAt_whole _ harg4 r0_hz, r0_readAt_whole _ harg5 r0_hz, r0_readAt_whole _ harg6 r0_hz, r0_readAt_whole _ harg7 r0_hz, r0_readAt_whole _ harg8 r0_hz, r0_readAt_whole _ harg9 r0_hz, r0_readAt_whole _ harg10 r0_hz, r0_readAt_whole _ harg11 r0_hz, r0_readAt_whole _ harg12 r0_hz, r0_readAt_whole _ harg13 r0_hz, r0_readAt_whole _ harg14 r0_hz, View.readCov_unit_zero (S := S1x2048) _ r0_hz, View.readCov_unit_zero (S := S64x2048) _ r0_hz]

end Cert.KernelIdeal.Hand

end
-- ==== Proof.KI.Frame0.lean ====
import proofs.«104285_g40587440947829_cont_sun_m_1101_7_alg».proof.Proof.KI.Dats
import proofs.«104285_g40587440947829_cont_sun_m_1101_7_alg».proof.Proof.KI.R0RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r0_after (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t ∧ (dat0 V c).after 9 t = iblk0 V c 9 t ∧ (dat0 V c).after 10 t = iblk0 V c 10 t ∧ (dat0 V c).after 11 t = iblk0 V c 11 t ∧ (dat0 V c).after 12 t = iblk0 V c 12 t ∧ (dat0 V c).after 13 t = iblk0 V c 13 t ∧ (dat0 V c).after 14 t = gAt V c t ∧ (dat0 V c).after 15 t = sAt V c t ∧ (dat0 V c).after 16 t = deAt V c t.val t.isLt ∧ (dat0 V c).after 17 t = m1tAt V c t.val t.isLt ∧ (dat0 V c).after 18 t = hAt V c t := by
  dsimp only [dat0]; simp only [and_self]

theorem r0_before (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) ∧ (∀ d, (dat0 V c).before 11 t d = iblk0 V c 11 t) ∧ (∀ d, (dat0 V c).before 12 t d = iblk0 V c 12 t) ∧ (∀ d, (dat0 V c).before 13 t d = iblk0 V c 13 t) := by
  refine ⟨?_, ?_, ?_, ?_, ?_, ?_, ?_, ?_, ?_, ?_, ?_, ?_, ?_, ?_⟩ <;>
    exact fun d => (dat0 V c).before_in_eq_fetched _ rfl (fun _ => rfl) (fun _ _ _ => rfl) (fun _ => rfl) t d

theorem r0_before_acc (c : Dev nD) (w : Fin cfg0.W) (hw : (cfg0.win w).isOut = true)
    (hf : ∀ t : Fin cfg0.N, (cfg0.win w).flush t = true ↔ t.val % 10 = 9) (hclip : ∀ (i : cfg0.grid.Coords) a, (cfg0.win w).clip i a = none)
    (t : Fin cfg0.N) (ht : t.val ≠ 0) (d) :
    (dat0 V c).before w t d = (dat0 V c).after w ⟨t.val - 1, Nat.lt_of_le_of_lt (Nat.sub_le _ _) t.isLt⟩ := by
  refine (dat0 V c).before_out_kept w hw t ht ?_ (fun _ => rfl) hclip d
  have hN : t.val < 10 := lt_of_lt_of_eq t.isLt (show cfg0.N = 10 from N_0)
  cases h : (cfg0.win w).flush ⟨t.val - 1, Nat.lt_of_le_of_lt (Nat.sub_le _ _) t.isLt⟩
  · rfl
  · have h9 : (t.val - 1) % 10 = 9 := (hf _).mp h
    omega

theorem r0_before_16 (c : Dev nD) (t : Fin cfg0.N) (ht : t.val ≠ 0) (d) :
    (dat0 V c).before 16 t d = deAt V c (t.val - 1) (Nat.lt_of_le_of_lt (Nat.sub_le _ _) t.isLt) :=
  r0_before_acc V c 16 rfl flush0_16 (fun _ _ => rfl) t ht d

theorem r0_before_17 (c : Dev nD) (t : Fin cfg0.N) (ht : t.val ≠ 0) (d) :
    (dat0 V c).before 17 t d = m1tAt V c (t.val - 1) (Nat.lt_of_le_of_lt (Nat.sub_le _ _) t.isLt) :=
  r0_before_acc V c 17 rfl flush0_17 (fun _ _ => rfl) t ht d

theorem r0_acc_zero (c : Dev nD) (t : Fin cfg0.N) (h : t.val = 0) :
    deAt V c t.val t.isLt = k0_pay6 (Hb0 V c t) (k0_pay2 (F := F))
      ∧ m1tAt V c t.val t.isLt = k0_pay1 (hAt V c t) (xn1At V c t) (k0_pay3 (F := F)) := by
  obtain ⟨n, hn⟩ := t
  cases n with
  | zero => exact ⟨rfl, rfl⟩
  | succ n => exact absurd h (Nat.succ_ne_zero n)

theorem r0_acc_pos (c : Dev nD) (t : Fin cfg0.N) (h : t.val ≠ 0) :
    deAt V c t.val t.isLt = k0_pay6 (Hb0 V c t) (deAt V c (t.val - 1) (Nat.lt_of_le_of_lt (Nat.sub_le _ _) t.isLt))
      ∧ m1tAt V c t.val t.isLt = k0_pay1 (hAt V c t) (xn1At V c t) (m1tAt V c (t.val - 1) (Nat.lt_of_le_of_lt (Nat.sub_le _ _) t.isLt)) := by
  obtain ⟨n, hn⟩ := t
  cases n with
  | zero => exact absurd rfl h
  | succ n => exact ⟨rfl, rfl⟩

theorem A_eq0 (c : Dev nD) (w : Fin cfg0.W) : (dat0 V c).A w = V c (Pipeline.arrRef spec0 w) := by
  dsimp only [dat0]

theorem body_obligation0 (c : Dev nD) : BodyObligation (dat0 (F := F) V c) (defs₀ (F := F)) Variants.none () Set.univ := fun t => by
  show _ ⊢ wp _ _ _ (bodyAt0 t) _
  rw [bigSep_W0, bigSep_W0]
  obtain ⟨b0, b1, b2, b3, b4, b5, b6, b7, b8, b9, b10, b11, b12, b13⟩ := r0_before V c t
  obtain ⟨a0, a1, a2, a3, a4, a5, a6, a7, a8, a9, a10, a11, a12, a13, a14, a15, a16, a17, a18⟩ := r0_after V c t
  simp only [b0, b1, b2, b3, b4, b5, b6, b7, b8, b9, b10, b11, b12, b13, a0, a1, a2, a3, a4, a5, a6, a7, a8, a9, a10, a11, a12, a13, a14, a15, a16, a17, a18]
  rw [show (dat0 V c).owesAt () t.succ = (dat0 V c).owesAt () t.castSucc from rfl, show (dat0 V c).Φ t.succ = (dat0 V c).Φ t.castSucc from rfl]
  by_cases h0 : t.val = 0 <;>
    [rw [(r0_acc_zero V c t h0).1, (r0_acc_zero V c t h0).2];
     (simp only [r0_before_16 V c t h0, r0_before_17 V c t h0]; rw [(r0_acc_pos V c t h0).1, (r0_acc_pos V c t h0).2])] <;>
  · unfold gAt xn1At sAt hAt x1At
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    first
      | iapply (kernelRun0_A c (grid0.coords t) _ _ _ _ _ _ _ _ _ _ _ _ _ _ _ _ _ _ _ _ _ _ _ _ _ _ _ _ _ _ _ _ _ _ _ _ _ _ ((hcond0_0 t).mpr h0) _ _ _ _ _ _ _ _ _ _ _ _ _ _ Set.univ _)
      | iapply (kernelRun0_B c (grid0.coords t) _ _ _ _ _ _ _ _ _ _ _ _ _ _ _ _ _ _ _ _ _ _ _ _ _ _ _ _ _ _ _ _ _ _ _ _ _ _ (fun h => h0 ((hcond0_0 t).mp h)) _ _ _ _ _ _ _ _ _ _ _ _ _ _ _ _ Set.univ _)
    iframe
    isplitl [H14]; · iexists _; iexact H14
    isplitl [H15]; · iexists _; iexact H15
    try (isplitl [H16]; · iexists _; iexact H16)
    try (isplitl [H17]; · iexists _; iexact H17)
    isplitl [H18]; · iexists _; iexact H18
    iintro ⟨H0, H1, H2, H3, H4, H5, H6, H7, H8, H9, H10, H11, H12, H13, H14, H15, H16, H17, H18⟩
    iframe

theorem hin0 (c : Dev nD) : (Pipeline.ΦA spec0 c : sProp 𝕄) ⊢ (dat0 V c).Φ 0 := Idealize.SL.BI.Entails.refl _

theorem hout0 (c : Dev nD) : (dat0 V c).Φ (Fin.last cfg0.N) ⊢ (Pipeline.ΦA spec0 c : sProp 𝕄) := Idealize.SL.BI.Entails.refl _

end Cert.KernelIdeal.Hand

end
-- ==== Proof.KI.R1Conds.lean ====
import proofs.«104285_g40587440947829_cont_sun_m_1101_7_alg».proof.Proof.KI.Dats
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev ms1_0 (t : Fin cfg1.N) : Memref sig .tc .vmem S2000x2048 .bf16 := win1_0.stage (cfg1.slots t 0)
abbrev ms1_1 (t : Fin cfg1.N) : Memref sig .tc .vmem S2000x1 .f32 := win1_1.stage (cfg1.slots t 1)
abbrev ms1_2 (t : Fin cfg1.N) : Memref sig .tc .vmem S64x2048 .f32 := win1_2.stage (cfg1.slots t 2)
abbrev ms1_3 (t : Fin cfg1.N) : Memref sig .tc .vmem S1x2048 .f32 := win1_3.stage (cfg1.slots t 3)
abbrev ms1_4 (t : Fin cfg1.N) : Memref sig .tc .vmem S1x2048 .f32 := win1_4.stage (cfg1.slots t 4)
abbrev ms1_5 (t : Fin cfg1.N) : Memref sig .tc .vmem S64x64 .f32 := win1_5.stage (cfg1.slots t 5)
abbrev ms1_6 (t : Fin cfg1.N) : Memref sig .tc .vmem S1x64 .f32 := win1_6.stage (cfg1.slots t 6)
abbrev ms1_7 (t : Fin cfg1.N) : Memref sig .tc .vmem S64x2048 .f32 := win1_7.stage (cfg1.slots t 7)

theorem r1_zeros2 : (![0, 0] : Fin 2 → Nat) = fun _ => 0 := funext fun a => by fin_cases a <;> rfl

/-- `read` through a whole memref is a bijection, so the contents that read `X` are unique. -/
theorem r1_owns_unread (c : Dev nD) {sh : Shape} {e : EltTy} {m : Memref sig .tc .vmem sh e} (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X) ⊢ (owns (c : Thread nD τ) m fullShare X : sProp 𝕄) := by
    unfold owns; iintro H; iexists _; isplitr; · ipureintro; exact h.read_unread _
    iexact H
  exact BI.equiv_iff.mp ⟨h₁, h₂⟩

end Cert.KernelIdeal.Hand

end
-- ==== Proof.KI.R1RunA.lean ====
import proofs.«104285_g40587440947829_cont_sun_m_1101_7_alg».proof.Proof.KI.R1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1 (c : Dev nD) (i : grid1.Coords)
    (arg1 : Memref sig .tc .vmem S2000x2048 .bf16) (harg1 : arg1.IsWhole) (arg2 : Memref sig .tc .vmem S2000x1 .f32) (harg2 : arg2.IsWhole)
    (arg3 : Memref sig .tc .vmem S64x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x2048 .f32) (harg8 : arg8.IsWhole)
    (arg9 : Memref sig .tc .vmem S2048x64 .bf16) (harg9 : arg9.IsWhole)
    (x0 : Vec F S2000x2048 .bf16) (x1 : Vec F S2000x1 .f32) (x2 : Vec F S64x2048 .f32) (x3 : Vec F S1x2048 .f32) (x4 : Vec F S1x2048 .f32)
    (x5 : Vec F S64x64 .f32) (x6 : Vec F S1x64 .f32) (x7 y7 : Vec F S64x2048 .f32) (xs ys : Vec F S2048x64 .bf16)
    (hA : cond1_0 i → ys = k1_pay2 x3 x4 x2 ∧ y7 = k1_pay3 x0 x1 ys x5 x6 (k1_pay1 (F := F)))
    (hB : ¬cond1_0 i → ys = xs ∧ y7 = k1_pay3 x0 x1 xs x5 x6 x7) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare xs
          ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare y7 ∗ owns (c : Thread nD τ) arg9 fullShare ys) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9) K := by
  simp only [cc1__pass2_kernel_eq_skeleton, r1_owns_unread c harg1, r1_owns_unread c harg2, r1_owns_unread c harg3, r1_owns_unread c harg4,
    r1_owns_unread c harg5, r1_owns_unread c harg6, r1_owns_unread c harg7]
  unfold cc1__pass2_kernel_skel owns
  iintro ⟨H0, H1, H2, H3, H4, H5, H6, ⟨%f7, %hf7, H7⟩, ⟨%f8, %hf8, H8⟩, Hk⟩
  obtain rfl := harg8.eq_unread hf7; obtain rfl := harg9.eq_unread hf8
  by_cases hc0 : cond1_0 i
  on_goal 1 => obtain ⟨rfl, rfl⟩ := hA hc0
  on_goal 2 => obtain ⟨rfl, rfl⟩ := hB hc0
  all_goals
    sl_exec (disch := first | exact hc0)
    sl_step
    iapply Hk
    iframe H0 H1 H2 H3 H4 H5 H6
    isplitl [H7]
  all_goals
    iexists _; isplitr; swap; · iassumption
    ipureintro
    first
    | try sl_unfold_words
      first
      | rw [View.read_writes_eq_canon _ _ _ (fun y => ⟨_, .head _, View.mem_set_unit_zero r1_zeros2 inb_S64x2048_S64x2048_0_0 y⟩),
          View.canon_cons_unit_zero (S := S64x2048) r1_zeros2]
      | rw [View.read_writes_eq_canon _ _ _ (fun y => ⟨_, .head _, View.mem_set_unit_zero r1_zeros2 inb_S2048x64_S2048x64_0_0 y⟩),
          View.canon_cons_unit_zero (S := S2048x64) r1_zeros2]
      simp only [View.readAt_eq_ld, harg1.read_unread, harg2.read_unread, harg3.read_unread, harg4.read_unread,
        harg5.read_unread, harg6.read_unread, harg7.read_unread, harg8.read_unread, harg9.read_unread,
        View.ld_unit_zero (S := S2000x2048) r1_zeros2, View.ld_unit_zero (S := S2000x1) r1_zeros2, View.ld_unit_zero (S := S64x2048) r1_zeros2,
        View.ld_unit_zero (S := S1x2048) r1_zeros2, View.ld_unit_zero (S := S64x64) r1_zeros2, View.ld_unit_zero (S := S1x64) r1_zeros2,
        View.ld_unit_zero (S := S2048x64) r1_zeros2,
        View.readCov_unit_zero (S := S2048x64) _ r1_zeros2, View.readCov_unit_zero (S := S64x2048) _ r1_zeros2]
    | exact harg9.read_unread _

end Cert.KernelIdeal.Hand

end
-- ==== Proof.KI.Frame1.lean ====
import proofs.«104285_g40587440947829_cont_sun_m_1101_7_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq1 (c : Dev nD) (w : Fin cfg1.W) : (dat1 V c).A w = V c (Pipeline.arrRef spec1 w) := by
  dsimp only [dat1]

theorem r1_after_7 (c : Dev nD) (t : Fin cfg1.N) : (dat1 V c).after 7 t = m2tAt V c t.val t.isLt := rfl

theorem r1_before (c : Dev nD) (w : Fin cfg1.W) (hw : w ≠ 7) (t : Fin cfg1.N) (d) : (dat1 V c).before w t d = (dat1 V c).after w t := by
  rcases w with ⟨_|_|_|_|_|_|_|_|n, hn⟩
  all_goals first
    | exact absurd rfl hw
    | exact absurd hn (Nat.not_lt.2 (Nat.le_add_left _ _))
    | exact ((dat1 V c).before_in_eq_fetched _ rfl (fun _ => rfl) (fun _ _ _ => rfl) (fun _ => rfl) t d).trans rfl

theorem r1_before_7_later (c : Dev nD) (t : Fin cfg1.N) (h0 : ¬t.val = 0) (d) :
    (dat1 V c).before 7 t d = m2tAt V c (t.val - 1) (Nat.lt_of_le_of_lt (Nat.sub_le _ _) t.isLt) := by
  have hN : t.val < 5 := lt_of_lt_of_eq t.isLt (show cfg1.N = 5 from N_1)
  rw [Dat.before_out_kept _ 7 rfl t h0 (Bool.eq_false_iff.mpr fun h => by have := (flush1_7 _).mp h; dsimp only at this; omega)
    (fun _ => rfl) (fun _ _ => rfl)]
  dsimp only [dat1]

theorem r1_m2tAt_first (c : Dev nD) (t : Fin cfg1.N) (h0 : t.val = 0) :
    m2tAt V c t.val t.isLt = k1_pay3 (Hb1 V c t) (sb1 V c t) (scr1 V c) (c2W1 V c t) (c2b1 V c t) (k1_pay1 (F := F)) := by
  obtain ⟨_|n, hn⟩ := t
  exacts [rfl, absurd h0 (Nat.succ_ne_zero n)]

theorem r1_m2tAt_later (c : Dev nD) (t : Fin cfg1.N) (h0 : ¬t.val = 0) :
    m2tAt V c t.val t.isLt = k1_pay3 (Hb1 V c t) (sb1 V c t) (scr1 V c) (c2W1 V c t) (c2b1 V c t)
      (m2tAt V c (t.val - 1) (Nat.lt_of_le_of_lt (Nat.sub_le _ _) t.isLt)) := by
  obtain ⟨_|n, hn⟩ := t
  exacts [absurd rfl h0, rfl]

theorem r1_scr_first (c : Dev nD) (t : Fin cfg1.N) (h0 : t.val = 0) :
    scr1 V c = k1_pay2 (wr1 V c t) (de1 V c t) (m1t1 V c t) := by
  obtain ⟨_|n, hn⟩ := t
  exacts [rfl, absurd h0 (Nat.succ_ne_zero n)]

theorem r1_PhiA_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

theorem r1_Phi_later (c : Dev nD) (n : ℕ) (h : n ≠ 0) :
    Phi1 V c n = iprop(owns (c : Thread nD τ) scM1 fullShare (scr1 V c) ∗ Pipeline.scopedRestBut (Ix := Unit) (Name := ℕ) (U := UR sig nD τ) (Lvl := ℕ) (Val := Elt F) spec1 c [cc1_scratch0] ∗ (∃ r, prngReg c r)) := by
  cases n with
  | zero => exact absurd rfl h
  | succ n => rfl

set_option maxHeartbeats 4000000 in
theorem r1_sound_body (c : Dev nD) (t : Fin cfg1.N) :
    iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
    ⊢ wp frame (wpE (defs₀ (F := F)) Variants.none c none) Set.univ (bodyAt1 t) (fun _ => iprop((dat1 V c).Φ t.succ ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))) := by
  unfold bodyAt1
  simp only [r1_before V c 0 (by decide), r1_before V c 1 (by decide), r1_before V c 2 (by decide), r1_before V c 3 (by decide),
    r1_before V c 4 (by decide), r1_before V c 5 (by decide), r1_before V c 6 (by decide)]
  rw [show (dat1 V c).Φ t.castSucc = Phi1 V c t.val from rfl, show (dat1 V c).Φ t.succ = Phi1 V c (t.val + 1) from rfl,
    r1_Phi_later V c (t.val + 1) (Nat.succ_ne_zero _),
    r1_after_7]
  by_cases h0 : t.val = 0
  · rw [show Phi1 V c t.val = Pipeline.ΦA spec1 c by rw [h0]; rfl, r1_PhiA_eq]
    iintro ⟨⟨⟨⟨%xs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1 c (grid1.coords t) _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t)
      _ _ _ (scr1 V c)
      (fun _ => ⟨r1_scr_first V c t h0, r1_m2tAt_first V c t h0⟩) (fun h => absurd ((hcond1_0 t).mpr h0) h) Set.univ _)
    iframe H0 H1 H2 H3 H4 H5 H6 H7 HS
    iintro ⟨H0, H1, H2, H3, H4, H5, H6, H7, HS⟩
    iframe
  · simp only [r1_before_7_later V c t h0]
    rw [r1_Phi_later V c _ h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1 c (grid1.coords t) _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t)
      _ _ _ (scr1 V c)
      (fun h => absurd ((hcond1_0 t).mp h) h0) (fun _ => ⟨rfl, r1_m2tAt_later V c t h0⟩) Set.univ _)
    iframe H0 H1 H2 H3 H4 H5 H6 H7 HS
    iintro ⟨H0, H1, H2, H3, H4, H5, H6, H7, HS⟩
    iframe

theorem body_obligation1 (c : Dev nD) : BodyObligation (dat1 (F := F) V c) (defs₀ (F := F)) Variants.none () Set.univ := fun t => by
  rw [bigSep_W1, bigSep_W1]
  exact r1_sound_body V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := by
  rw [show (dat1 V c).Φ (Fin.last cfg1.N) = Phi1 V c cfg1.N from rfl,
    r1_Phi_later V c cfg1.N (by rw [show cfg1.N = 5 from N_1]; decide), r1_PhiA_eq]
  iintro ⟨HS, HR, Hg⟩
  iframe HR Hg
  iexists _; iexact HS

end Cert.KernelIdeal.Hand

end
-- ==== Proof.KI.R2Conds.lean ====
import proofs.«104285_g40587440947829_cont_sun_m_1101_7_alg».proof.Proof.KI.Dats
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev ms2_0 (t : Fin cfg2.N) := win2_0.stage (cfg2.slots t 0)
abbrev ms2_1 (t : Fin cfg2.N) := win2_1.stage (cfg2.slots t 1)
abbrev ms2_2 (t : Fin cfg2.N) := win2_2.stage (cfg2.slots t 2)
abbrev ms2_3 (t : Fin cfg2.N) := win2_3.stage (cfg2.slots t 3)
abbrev ms2_4 (t : Fin cfg2.N) := win2_4.stage (cfg2.slots t 4)
abbrev ms2_5 (t : Fin cfg2.N) := win2_5.stage (cfg2.slots t 5)
abbrev ms2_6 (t : Fin cfg2.N) := win2_6.stage (cfg2.slots t 6)
abbrev ms2_7 (t : Fin cfg2.N) := win2_7.stage (cfg2.slots t 7)

end Cert.KernelIdeal.Hand

end
-- ==== Proof.KI.R2RunA.lean ====
import proofs.«104285_g40587440947829_cont_sun_m_1101_7_alg».proof.Proof.KI.R2Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r2_hz : (![0, 0] : Fin 2 → Nat) = fun _ => 0 := funext fun a => by fin_cases a <;> rfl

-- One store through the whole rectangle covers every index.
theorem r2_cover_one {Val : EltTy → Type} {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  ⟨_, List.mem_singleton_self _, View.mem_set_unit_zero h inb y⟩

end Cert.KernelIdeal.Hand

end
-- ==== Proof.KI.R2RunB.lean ====
import proofs.«104285_g40587440947829_cont_sun_m_1101_7_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernelRun2 (c : Dev nD) (i : grid2.Coords)
    (arg1 : Memref sig .tc .vmem S2000x2048 .bf16) (harg1 : arg1.IsWhole)
    (arg2 : Memref sig .tc .vmem S2000x1 .f32) (harg2 : arg2.IsWhole)
    (arg3 : Memref sig .tc .vmem S64x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S64x2 .f32) (harg6 : arg6.IsWhole)
    (arg7 : Memref sig .tc .vmem S1x2 .f32) (harg7 : arg7.IsWhole)
    (arg8 : Memref sig .tc .vmem S2000x2 .f32) (harg8 : arg8.IsWhole)
    (arg9 : Memref sig .tc .vmem S2048x64 .bf16) (harg9 : arg9.IsWhole)
    (x0 : Vec F S2000x2048 .bf16) (x1 : Vec F S2000x1 .f32) (x2 : Vec F S64x2048 .f32) (x3 : Vec F S1x2048 .f32) (x4 : Vec F S1x2048 .f32) (x5 : Vec F S64x2 .f32) (x6 : Vec F S1x2 .f32) (xs : Vec F S2048x64 .bf16)
    (E : Set ℕ) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6
        ∗ (∃ d, owns c arg8 fullShare d) ∗ owns c arg9 fullShare xs
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6
            ∗ owns c arg8 fullShare (k2_pay2 x0 x1 (if cond2_0 i then k2_pay1 x3 x4 x2 else xs) x5 x6)
            ∗ owns c arg9 fullShare (if cond2_0 i then k2_pay1 x3 x4 x2 else xs)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9) K := by
  by_cases hc0 : cond2_0 i <;> first | rw [if_pos hc0] | rw [if_neg hc0]
  all_goals
    simp only [cc2__pass3_kernel_eq_skeleton]; unfold cc2__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    subst hf0 hf1 hf2 hf3 hf4 hf5 hf6 hfs0
    sl_exec (disch := first | exact hc0)
    sl_step
    iapply Hk
    isplitl [H0]; swap; isplitl [H1]; swap; isplitl [H2]; swap; isplitl [H3]; swap; isplitl [H4]; swap
    isplitl [H5]; swap; isplitl [H6]; swap; isplitl [H7]
    all_goals
      iexists _; isplitr
      swap; · iassumption
      ipureintro
      first
      | with_reducible rfl
      | (sl_unfold_words
         rw [View.read_writes_eq_canon _ _ _ (r2_cover_one r2_hz _ _), View.canon_unit_zero r2_hz]
         simp only [View.readAt_eq_ld, View.ld_unit_zero (S := S2000x2048) r2_hz, View.ld_unit_zero (S := S2000x1) r2_hz, View.ld_unit_zero (S := S64x2048) r2_hz, View.ld_unit_zero (S := S1x2048) r2_hz, View.ld_unit_zero (S := S64x2) r2_hz, View.ld_unit_zero (S := S1x2) r2_hz, View.ld_unit_zero (S := S2048x64) r2_hz, View.readCov_unit_zero (S := S2048x64) _ r2_hz])

end Cert.KernelIdeal.Hand

end
-- ==== Proof.KI.Frame2.lean ====
import proofs.«104285_g40587440947829_cont_sun_m_1101_7_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq2 (c : Dev nD) (w : Fin cfg2.W) : (dat2 V c).A w = V c (Pipeline.arrRef spec2 w) := rfl

theorem r2_before (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> exact fun d =>
    ((dat2 V c).before_in_eq_fetched _ rfl (fun _ => rfl) (fun _ _ _ => rfl)
      (fun t => by show iblk2 V c _ t = _; unfold Dat.blockOf iblk2; rw [A_eq2]; try rfl) t d).trans
      (by unfold Dat.fetched Dat.blockOf iblk2; rw [A_eq2]; try rfl)

abbrev r2_inv (c : Dev nD) (xs : Vec F S2048x64 .bf16) : sProp 𝕄 :=
  iprop(owns c scM2 fullShare xs ∗ Pipeline.scopedRestBut (Ix := Unit) (Name := ℕ) (U := UR sig nD τ) (Lvl := ℕ) (Val := Elt F) spec2 c [cc2_scratch0] ∗ (∃ r, prngReg c r))

theorem r2_Phi_of_pos (c : Dev nD) (n : ℕ) (hz : n ≠ 0) : Phi2 V c n = r2_inv c (scr2 V c) := by
  cases n <;> first | rfl | exact absurd rfl hz

theorem r2_PhiA_eq (c : Dev nD) :
    (Pipeline.ΦA spec2 c : sProp 𝕄) = iprop(iprop((∃ d, owns c scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

theorem r2_Phi_open (c : Dev nD) (t : Fin cfg2.N) :
    Phi2 V c t.val ⊢ iprop(∃ xs : Vec F S2048x64 .bf16,
      ⌜(if cond2_0 (grid2.coords t) then k2_pay1 (iblk2 V c 3 t) (iblk2 V c 4 t) (iblk2 V c 2 t) else xs) = scr2 V c⌝ ∗ r2_inv c xs) := by
  unfold r2_inv
  by_cases h0 : t.val = 0
  · obtain rfl : t = t2z := Fin.ext h0
    rw [show Phi2 V c t2z.val = Pipeline.ΦA spec2 c from rfl, r2_PhiA_eq]
    iintro ⟨⟨⟨%d, HS⟩, HR⟩, Hg⟩
    iexists d
    iframe
    ipureintro; exact if_pos ((hcond2_0 t2z).mpr rfl)
  · rw [r2_Phi_of_pos V c _ h0]
    iintro H
    iexists _
    isplitr; · ipureintro; exact if_neg fun h => h0 ((hcond2_0 t).mp h)
    iexact H

set_option maxHeartbeats 4800000 in
theorem r2_sound_body (c : Dev nD) (t : Fin cfg2.N) :
    iprop(Phi2 V c t.val ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d))
      ∗ (∃ d, owns c (ms2_4 t) fullShare ((dat2 V c).before 4 t d))
      ∗ (∃ d, owns c (ms2_5 t) fullShare ((dat2 V c).before 5 t d))
      ∗ (∃ d, owns c (ms2_6 t) fullShare ((dat2 V c).before 6 t d))
      ∗ (∃ d, owns c (ms2_7 t) fullShare ((dat2 V c).before 7 t d)))
    ⊢ wp frame (wpE (defs₀ (F := F)) Variants.none c none) Set.univ (bodyAt2 t) (fun _ =>
      iprop(r2_inv c (scr2 V c) ∗ (dat2 V c).owesAt () t.castSucc
      ∗ owns c (ms2_0 t) fullShare (iblk2 V c 0 t)
      ∗ owns c (ms2_1 t) fullShare (iblk2 V c 1 t)
      ∗ owns c (ms2_2 t) fullShare (iblk2 V c 2 t)
      ∗ owns c (ms2_3 t) fullShare (iblk2 V c 3 t)
      ∗ owns c (ms2_4 t) fullShare (iblk2 V c 4 t)
      ∗ owns c (ms2_5 t) fullShare (iblk2 V c 5 t)
      ∗ owns c (ms2_6 t) fullShare (iblk2 V c 6 t)
      ∗ owns c (ms2_7 t) fullShare (k2_pay2 (iblk2 V c 0 t) (iblk2 V c 1 t) (scr2 V c) (iblk2 V c 5 t) (iblk2 V c 6 t)))) := by
  unfold bodyAt2 r2_inv
  simp only [r2_before V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨%xs, %hS, HS, HR, Hg⟩ := (r2_Phi_open V c t) $$ HΦ
  iapply kernelRun2 (xs := xs)
  iframe H0 H1 H2 H3 H4 H5 H6 HS
  rw [hS]
  isplitl [H7]; · iexists _; iexact H7
  iintro ⟨H0, H1, H2, H3, H4, H5, H6, H7, HS⟩
  iframe

theorem body_obligation2 (c : Dev nD) : BodyObligation (dat2 (F := F) V c) (defs₀ (F := F)) Variants.none () Set.univ := fun t => by
  rw [bigSep_W2, bigSep_W2]
  exact r2_sound_body V c t

theorem hin2 (c : Dev nD) : (Pipeline.ΦA spec2 c : sProp 𝕄) ⊢ (dat2 V c).Φ 0 :=
  Entails.refl _

theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val from rfl,
    r2_Phi_of_pos V c _ (by decide), r2_PhiA_eq]
  iintro ⟨HS, HR, Hg⟩
  iframe HR Hg
  iexists _; iexact HS

end Cert.KernelIdeal.Hand

end
-- ==== Proof.KI.Launch.lean ====
import proofs.«104285_g40587440947829_cont_sun_m_1101_7_alg».proof.Proof.KI.Frame0
import proofs.«104285_g40587440947829_cont_sun_m_1101_7_alg».proof.Proof.KI.Frame1
import proofs.«104285_g40587440947829_cont_sun_m_1101_7_alg».proof.Proof.KI.Frame2
import proofs.«104285_g40587440947829_cont_sun_m_1101_7_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bnd0 (c : Dev nD) : Valuation τ sig (Elt F) := fun b => m (c, b)

abbrev bnd1 (c : Dev nD) : Valuation τ sig (Elt F) := StableHlo.after hostOps0 (bnd0 m c)
abbrev ent1 : (c : Dev nD) → (b : Ref sig .tc) → Buf (Elt F) ((c : Thread nD τ).loc b) := fun c b => bnd1 m c b

def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
theorem left0_arr (c : Dev nD) (w : Fin cfg0.W) : (dat0 (ent1 m) c).arrAt w cfg0.N = (fun b : Ref sig .tc => bnd2 m c b) (Pipeline.arrRef spec0 w) :=
  (bnd2_arr m c w).symm
theorem left0_rest (c : Dev nD) : ∀ b, b ∉ Finset.univ.image (Pipeline.arrRef spec0) → (fun b : Ref sig .tc => bnd2 m c b) b = ent1 m c b :=
  fun b hb => bnd2_of_ne m c b fun w e => hb (Finset.mem_image.mpr ⟨w, Finset.mem_univ _, e⟩)

abbrev bnd3 (c : Dev nD) : Valuation τ sig (Elt F) := StableHlo.after hostOps1 (bnd2 m c)
abbrev ent3 : (c : Dev nD) → (b : Ref sig .tc) → Buf (Elt F) ((c : Thread nD τ).loc b) := fun c b => bnd3 m c b

def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
theorem left1_arr (c : Dev nD) (w : Fin cfg1.W) : (dat1 (ent3 m) c).arrAt w cfg1.N = (fun b : Ref sig .tc => bnd4 m c b) (Pipeline.arrRef spec1 w) :=
  (bnd4_arr m c w).symm
theorem left1_rest (c : Dev nD) : ∀ b, b ∉ Finset.univ.image (Pipeline.arrRef spec1) → (fun b : Ref sig .tc => bnd4 m c b) b = ent3 m c b :=
  fun b hb => bnd4_of_ne m c b fun w e => hb (Finset.mem_image.mpr ⟨w, Finset.mem_univ _, e⟩)

abbrev bnd5 (c : Dev nD) : Valuation τ sig (Elt F) := StableHlo.after hostOps2 (bnd4 m c)
abbrev ent5 : (c : Dev nD) → (b : Ref sig .tc) → Buf (Elt F) ((c : Thread nD τ).loc b) := fun c b => bnd5 m c b

def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
theorem left2_arr (c : Dev nD) (w : Fin cfg2.W) : (dat2 (ent5 m) c).arrAt w cfg2.N = (fun b : Ref sig .tc => bnd6 m c b) (Pipeline.arrRef spec2 w) :=
  (bnd6_arr m c w).symm
theorem left2_rest (c : Dev nD) : ∀ b, b ∉ Finset.univ.image (Pipeline.arrRef spec2) → (fun b : Ref sig .tc => bnd6 m c b) b = ent5 m c b :=
  fun b hb => bnd6_of_ne m c b fun w e => hb (Finset.mem_image.mpr ⟨w, Finset.mem_univ _, e⟩)

theorem withArrays_kept {gr W : ℕ} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb; exact (Pipeline.withArrays_arr win hinj c V A w).trans (h w rfl)
  · exact Pipeline.withArrays_of_ne win c V A b fun w e => hb ⟨w, e⟩

/-- No later item writes `b`: the two later host stretches do not, and calls 1 and 2 see it through an input window or not at all. -/
abbrev KeptLate (b : Ref sig .tc) : Prop :=
  (∀ w, Pipeline.arrRef spec1 w = b → (cfg1.win w).isOut = false) ∧ (∀ w, Pipeline.arrRef spec2 w = b → (cfg2.win w).isOut = false)
    ∧ b ∉ hostOps1_W ∧ b ∉ hostOps2_W
/-- No item at all writes `b`. -/
abbrev Kept (b : Ref sig .tc) : Prop :=
  (∀ w, Pipeline.arrRef spec0 w = b → (cfg0.win w).isOut = false) ∧ b ∉ hostOps0_W ∧ KeptLate b

theorem bnd6_eq_bnd2 (c : Dev nD) (b : Ref sig .tc) (h : KeptLate b) : bnd6 m c (Proc.devRef .tc b) = bnd2 m c (Proc.devRef .tc b) :=
  calc bnd6 m c (Proc.devRef .tc b)
    _ = bnd5 m c (Proc.devRef .tc b) := withArrays_kept spec2 launch2.win.arr_inj c _ _ b fun w e =>
          ((dat2 (ent5 m) c).arrAt_in w (h.2.1 w e) _).trans (A_eq2 (ent5 m) c w)
    _ = bnd4 m c (Proc.devRef .tc b) := StableHlo.after_of_writes_sub hostOps2 _ hostOps2_writes h.2.2.2
    _ = bnd3 m c (Proc.devRef .tc b) := withArrays_kept spec1 launch1.win.arr_inj c _ _ b fun w e =>
          ((dat1 (ent3 m) c).arrAt_in w (h.1 w e) _).trans (A_eq1 (ent3 m) c w)
    _ = bnd2 m c (Proc.devRef .tc b) := StableHlo.after_of_writes_sub hostOps1 _ hostOps1_writes h.2.2.1

theorem bnd6_kept (c : Dev nD) (b : Ref sig .tc) (h : Kept b) : bnd6 m c (Proc.devRef .tc b) = m ((c : Thread nD τ).loc b) :=
  calc bnd6 m c (Proc.devRef .tc b)
    _ = bnd2 m c (Proc.devRef .tc b) := bnd6_eq_bnd2 m c b h.2.2
    _ = bnd1 m c (Proc.devRef .tc b) := withArrays_kept spec0 launch0.win.arr_inj c _ _ b fun w e =>
          ((dat0 (ent1 m) c).arrAt_in w (h.1 w e) _).trans (A_eq0 (ent1 m) c w)
    _ = bnd0 m c (Proc.devRef .tc b) := StableHlo.after_of_writes_sub hostOps0 _ hostOps0_writes h.2.1

def pdat : (p : Fin 3) → (c : Dev nD) → Dat τ (Elt F) Unit ℕ (UR sig nD τ) ℕ (Pipeline.pin (pcfgs (F := F)) adm p) c
  | ⟨0, _⟩ => fun c => dat0 (ent1 m) c
  | ⟨1, _⟩ => fun c => dat1 (ent3 m) c
  | ⟨2, _⟩ => fun c => dat2 (ent5 m) c
abbrev noVar : Variants := Variants.none

abbrev noL : GSem nD τ sig → Finset Unit := fun _ => ∅
abbrev noLv : GSem nD τ sig → Unit → ℕ := fun _ _ => 0

abbrev ride (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev lastState (c : Dev nD) : sProp 𝕄 := iprop(StableHlo.held (c : Thread nD τ) (Pipeline.ucRefs τ sig) (bnd6 m c) ∗ ∃ r, prngReg c r)

theorem toPhiA {gr W : ℕ} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ (Pipeline.ΦA win c : sProp 𝕄) := by
  unfold Pipeline.ΦA
  iintro ⟨Hp, -, Hr⟩
  isplitl [Hr]; · iexact Hr
  iexact Hp

theorem ofPhiA {gr W : ℕ} (win : Fin W → Pipeline.WinSpec sig gr) (c : Dev nD) :
    (Pipeline.ΦA win c : sProp 𝕄)
      ⊢ (iprop((∃ r, prngReg c r) ∗ BI.emp ∗ Pipeline.scopedRest (Ix := Unit) (Name := ℕ) (U := UR sig nD τ) (Lvl := ℕ) (Val := Elt F) win c) : sProp 𝕄) := by
  unfold Pipeline.ΦA
  iintro ⟨Hr, Hp⟩
  isplitl [Hp]; · iexact Hp
  isplitr; · iempintro
  iexact Hr

set_option backward.isDefEq.respectTransparency.types false in

def callSeg0 : Pipeline.RegionSeg (pcfgs (F := F)) adm (pdat m) () defs₀ noVar noL noLv 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ noL noLv 0 fun _ _ => rfl
  pre c := iprop(StableHlo.held (c : Thread nD τ) (Pipeline.ucRefs τ sig) (bnd1 m c) ∗ ride c)
  post c := iprop(StableHlo.held (c : Thread nD τ) (Pipeline.ucRefs τ sig) (bnd2 m c) ∗ ride c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin0 (ent1 m) c)
  hout c := by
    rw [Pipeline.ownSems0_none]
    exact (hout0 (ent1 m) c).trans (ofPhiA _ c)
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (ent1 m c) (fun b => bnd2 m c b) ((pdat m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def callSeg1 : Pipeline.RegionSeg (pcfgs (F := F)) adm (pdat m) () defs₀ noVar noL noLv 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ noL noLv 1 fun _ _ => rfl
  pre c := iprop(StableHlo.held (c : Thread nD τ) (Pipeline.ucRefs τ sig) (bnd3 m c) ∗ ride c)
  post c := iprop(StableHlo.held (c : Thread nD τ) (Pipeline.ucRefs τ sig) (bnd4 m c) ∗ ride c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin1 (ent3 m) c)
  hout c := by
    rw [Pipeline.ownSems0_none]
    exact (hout1 (ent3 m) c).trans (ofPhiA _ c)
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (ent3 m c) (fun b => bnd4 m c b) ((pdat m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def callSeg2 : Pipeline.RegionSeg (pcfgs (F := F)) adm (pdat m) () defs₀ noVar noL noLv 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ noL noLv 2 fun _ _ => rfl
  pre c := iprop(StableHlo.held (c : Thread nD τ) (Pipeline.ucRefs τ sig) (bnd5 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) adm (pdat m) launch2.win launch2.arr_whole c
      ((pdat m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA _ c _).trans (hin2 (ent5 m) c)
  hout c := by
    rw [Pipeline.ownSems0_none]
    exact (hout2 (ent5 m) c).trans (ofPhiA _ c)
  hexit c := by
    have hjoin := Pipeline.unscopedBufs_of_arrays (p := 2) (pcfgs (F := F)) adm (Ix := Unit) (Name := ℕ) (U := UR sig nD τ) (Lvl := ℕ)
      launch2.win launch2.arr_whole c (pdat m) ((pdat m 2 c).share_full fun _ => rfl)
      (ent5 m c) (fun b => bnd6 m c b) ((pdat m 2 c).arrAt · cfg2.N) (left2_arr m c) (left2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev mainSegs : List (Pipeline.Seg (pcfgs (F := F)) adm (pdat m) () defs₀ noVar noL noLv) :=
  [ .host (hostSeg hostOps0 hostOps0_sub hostOps0_fresh (bnd0 m)),
    .region (callSeg0 m),
    .host (hostSeg hostOps1 hostOps1_sub hostOps1_fresh (bnd2 m)),
    .region (callSeg1 m),
    .host (hostSeg hostOps2 hostOps2_sub hostOps2_fresh (bnd4 m)),
    .region (callSeg2 m) ]

theorem main_run (c : Dev nD) : main (F := F) c = Pipeline.Seg.run (mainSegs m) := (main_chain c).trans (by chain_rfl)

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = bnd6 m c b) :=
  Pipeline.θ_run_regions_kit (pcfgs (F := F)) adm (pdat m) () cellOf_inj emb₁ defs₀ noVar noL noLv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ ride c)) (Tₙ := lastState m)
    (hch := ⟨fun _ => .rfl, fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd6 m c b)
    (hfin := fun c s' => by
      iintro ⟨⟨Hh, -⟩, HSI⟩
      unfold StableHlo.held
      imodintro
      iapply (pointsTo_read_all (Pipeline.ucRefs τ sig) (fun b => (((c : Thread nD τ)).1, b)) (bnd6 m c) s')
      isplitl [Hh] <;> iassumption)
    (hQ := fun _ h => h)

/-- The logits end at call 2's output array, the gate at call 0's first, and every argument as launched. -/
theorem run_results : θ_run defs (onTc (τ := τ) (main (F := F))) ⟨m, fun _ => 0, ρ⟩ (fun r => ∀ c : Dev nD,
      r.2.mem ((c.tc : Thread nD τ).loc main_v12) = (dat2 (ent5 m) c).arrAt 7 cfg2.N
      ∧ r.2.mem ((c.tc : Thread nD τ).loc main_v7_0) = (dat0 (ent1 m) c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    have k (b : Ref sig .tc) (hu : ¬ (Proc.devRef .tc b : DevRef τ sig).isScoped) (hk : Kept b) :
        r.2.mem ((c.tc : Thread nD τ).loc b) = m ((c.tc : Thread nD τ).loc b) := (h c _ (mem_uc b hu)).trans (bnd6_kept m c b hk)
    ⟨(h c _ (mem_uc main_v12 (by decide))).trans (bnd6_arr m c 7),
     (h c _ (mem_uc main_v7_0 (by decide))).trans ((bnd6_eq_bnd2 m c main_v7_0 (by decide)).trans (bnd2_arr m c 14)),
     k main_arg0 (by decide) (by decide),
     k main_arg1 (by decide) (by decide),
     k main_arg2 (by decide) (by decide),
     k main_arg3 (by decide) (by decide),
     k main_arg4 (by decide) (by decide),
     k main_arg5 (by decide) (by decide),
     k main_arg6 (by decide) (by decide),
     k main_arg7 (by decide) (by decide),
     k main_arg8 (by decide) (by decide),
     k main_arg9 (by decide) (by decide),
     k main_arg10 (by decide) (by decide),
     k main_arg11 (by decide) (by decide),
     k main_arg12 (by decide) (by decide),
     k main_arg13 (by decide) (by decide),
     k main_arg14 (by decide) (by decide),
     k main_arg15 (by decide) (by decide),
     k main_arg16 (by decide) (by decide),
     k main_arg17 (by decide) (by decide)⟩) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (a b : ℕ) : Type := (⟨2, ![a, b]⟩ : Shape).Idx → EReal

def eps : EReal := Ideal.ofBits .f32 0x3089705F#32

def one : EReal := Ideal.ofBits .f32 0x3F800000#32
def zero : EReal := Ideal.ofBits .f32 0x00000000#32

def lin {n k d : ℕ} (x : Arr n k) (W : Arr k d) (b : Arr 1 d) (i : Fin n) (j : Fin d) : EReal :=
  (∑ p : Fin k, x (ix2 i p) * W (ix2 p j)) + b (ix2 0 j)

def cat {n : ℕ} (a b : Fin n → Fin 32 → EReal) (i : Fin n) (p : Fin 64) : EReal :=
  if h : p.val < 32 then a i ⟨p.val, h⟩ else b i ⟨p.val - 32, by omega⟩

section Call0

variable (H : Arr 10000 2048) (x : Arr 10000 128) (z : Arr 10000 16) (w : Arr 2048 1)
  (psiW : Arr 128 32) (psib : Arr 1 32) (phiW : Arr 16 32) (phib : Arr 1 32)
  (g1W : Arr 64 64) (g1b : Arr 1 64) (g2W : Arr 64 32) (g2b : Arr 1 32) (c1W : Arr 32 64) (c1b : Arr 1 64)

def gh (i : Fin 10000) (j : Fin 64) : EReal :=
  max ((∑ p : Fin 64, cat (lin x psiW psib) (lin z phiW phib) i p * g1W (ix2 p j)) + g1b (ix2 0 j)) zero

def gate (i : Fin 10000) (j : Fin 32) : EReal :=
  Ideal.logistic ((∑ p : Fin 64, gh x z psiW psib phiW phib g1W g1b i p * g2W (ix2 p j)) + g2b (ix2 0 j))

def fused (i : Fin 10000) (j : Fin 32) : EReal :=
  gate x z psiW psib phiW phib g1W g1b g2W g2b i j * lin z phiW phib i j
    + (one - gate x z psiW psib phiW phib g1W g1b g2W g2b i j) * lin x psiW psib i j

def dv (i : Fin 10000) : EReal := ∑ q : Fin 2048, H (ix2 i q) * w (ix2 q 0)
def isd (i : Fin 10000) : EReal := Ideal.rsqrt (dv H w i + eps)

def xn1 (i : Fin 10000) (j : Fin 64) : EReal :=
  ((∑ p : Fin 32, fused x z psiW psib phiW phib g1W g1b g2W g2b i p * c1W (ix2 p j)) + c1b (ix2 0 j)) * isd H w i

def de (q : Fin 2048) : EReal := ∑ i : Fin 10000, H (ix2 i q)

def m1t (d : Fin 64) (q : Fin 2048) : EReal :=
  ∑ i : Fin 10000, xn1 H x z w psiW psib phiW phib g1W g1b g2W g2b c1W c1b i d * H (ix2 i q)

end Call0

section Call12

variable (Hh : Arr 10000 2048) (s : Arr 10000 1) (mt : Arr 64 2048) (wr : Arr 1 2048) (de : Arr 1 2048)

def se (q : Fin 2048) : EReal := Ideal.div (wr (ix2 0 q)) (de (ix2 0 q) + eps)

def mn (q : Fin 2048) (d : Fin 64) : EReal := mt (ix2 d q) * se wr de q

def hid (i : Fin 10000) (d : Fin 64) : EReal :=
  max ((∑ q : Fin 2048, Hh (ix2 i q) * mn mt wr de q d) * s (ix2 i 0)) zero

variable (c2W : Arr 64 64) (c2b : Arr 1 64)

def m2t (d : Fin 64) (q : Fin 2048) : EReal :=
  ∑ i : Fin 10000, (((∑ k : Fin 64, hid Hh s mt wr de i k * c2W (ix2 k d)) + c2b (ix2 0 d)) * s (ix2 i 0)) * Hh (ix2 i q)

variable (hdW : Arr 64 2) (hdb : Arr 1 2)

def logits (i : Fin 10000) (j : Fin 2) : EReal :=
  (∑ k : Fin 64, hid Hh s mt wr de i k * hdW (ix2 k j)) + hdb (ix2 0 j)

end Call12

end Cert.Spec

end
-- ==== Proof.RefDefs.lean ====
import proofs.«104285_g40587440947829_cont_sun_m_1101_7_alg».proof.Proof.Spec

noncomputable section

namespace Cert.ReferenceIdeal.Hand

open Idealize.ShloMosaic Idealize.ShloMosaic.ValueIdx
open Cert.Spec (Arr)

abbrev Vec (n : ℕ) : Type := (⟨1, ![n]⟩ : Shape).Idx → EReal

def row {d : ℕ} (v : Vec d) : Arr 1 d := fun i => v (ix1 (i 1))

def W16 (w : Vec 2048) : Arr 2048 1 := fun i => w (ix1 (i 0))

section

variable (H : Arr 10000 2048) (x : Arr 10000 128) (z : Arr 10000 16) (w : Vec 2048)
  (psiW : Arr 128 32) (psib : Vec 32) (phiW : Arr 16 32) (phib : Vec 32)
  (g1W : Arr 64 64) (g1b : Vec 64) (g2W : Arr 64 32) (g2b : Vec 32) (c1W : Arr 32 64) (c1b : Vec 64)
  (c2W : Arr 64 64) (c2b : Vec 64)

def S1 : Arr 10000 1 := fun i => Cert.Spec.isd H (W16 w) (i 0)

def De1 : Arr 1 2048 := fun i => Cert.Spec.de H (i 1)

def M1 : Arr 64 2048 := fun i =>
  Cert.Spec.m1t H x z (W16 w) psiW (row psib) phiW (row phib) g1W (row g1b) g2W (row g2b) c1W (row c1b) (i 0) (i 1)

def M2 : Arr 64 2048 := fun i =>
  Cert.Spec.m2t H (S1 H w) (M1 H x z w psiW psib phiW phib g1W g1b g2W g2b c1W c1b) (row w) (De1 H) c2W (row c2b) (i 0) (i 1)

end

end Cert.ReferenceIdeal.Hand

end
-- ==== Proof.KI.ComposeHost.lean ====
import proofs.«104285_g40587440947829_cont_sun_m_1101_7_alg».proof.Proof.KI.Dats
import proofs.«104285_g40587440947829_cont_sun_m_1101_7_alg».proof.Proof.RefDefs
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (row W16)

theorem cp_shapeCast_row {n : ℕ} (v : (⟨1, ![n]⟩ : Shape).Idx → EReal) (h : (⟨1, ![n]⟩ : Shape).ShapeCasts ⟨2, ![1, n]⟩) :
    shapeCast ⟨2, ![1, n]⟩ v h = row v := by
  funext i
  have h0 : (i 0).val < 1 := (i 0).isLt
  exact shapeCast_apply v h i (ix1 (i 1 : Fin n)) (by
    rw [Shape.rowMajor_val_two, Shape.rowMajor_val_one]
    show (i 1).val = (i 0).val * n + (i 1).val
    have e : (i 0).val = 0 := by omega
    rw [e]; omega)

theorem cp_shapeCast_col (v : (⟨1, ![2048]⟩ : Shape).Idx → EReal) (h : (⟨1, ![2048]⟩ : Shape).ShapeCasts ⟨2, ![2048, 1]⟩) :
    shapeCast ⟨2, ![2048, 1]⟩ v h = W16 v := by
  funext i
  have h1 : (i 1).val < 1 := (i 1).isLt
  exact shapeCast_apply v h i (ix1 (i 0 : Fin 2048)) (by
    rw [Shape.rowMajor_val_two, Shape.rowMajor_val_one]
    show (i 0).val = (i 0).val * 1 + (i 1).val
    omega)

variable (W : Valuation τ sig (Elt Ideal))

theorem cp_host0_v1 : (StableHlo.after (hostOps0 (F := Ideal)) W (Proc.devRef .tc main_v1) : Cert.Spec.Arr 2048 1)
    = W16 (W (Proc.devRef .tc main_arg3)) := by
  simp (disch := decide) only [StableHlo.after_cons, StableHlo.after_nil, StableHlo.reshape_result', StableHlo.unary_result',
    StableHlo.reshape_result_ne', StableHlo.unary_result_ne']
  funext i
  exact congrFun (cp_shapeCast_col (W (Proc.devRef .tc main_arg3)) shapeCasts_S2048_S2048x1) i

theorem cp_host0_v2 : (StableHlo.after (hostOps0 (F := Ideal)) W (Proc.devRef .tc main_v2) : Cert.Spec.Arr 1 32)
    = row (W (Proc.devRef .tc main_arg5)) := by
  simp (disch := decide) only [StableHlo.after_cons, StableHlo.after_nil, StableHlo.reshape_result', StableHlo.unary_result',
    StableHlo.reshape_result_ne', StableHlo.unary_result_ne']
  funext i
  exact congrFun (cp_shapeCast_row (W (Proc.devRef .tc main_arg5)) shapeCasts_S32_S1x32) i

theorem cp_host0_v3 : (StableHlo.after (hostOps0 (F := Ideal)) W (Proc.devRef .tc main_v3) : Cert.Spec.Arr 1 32)
    = row (W (Proc.devRef .tc main_arg7)) := by
  simp (disch := decide) only [StableHlo.after_cons, StableHlo.after_nil, StableHlo.reshape_result', StableHlo.unary_result',
    StableHlo.reshape_result_ne', StableHlo.unary_result_ne']
  funext i
  exact congrFun (cp_shapeCast_row (W (Proc.devRef .tc main_arg7)) shapeCasts_S32_S1x32) i

theorem cp_host0_v4 : (StableHlo.after (hostOps0 (F := Ideal)) W (Proc.devRef .tc main_v4) : Cert.Spec.Arr 1 64)
    = row (W (Proc.devRef .tc main_arg9)) := by
  simp (disch := decide) only [StableHlo.after_cons, StableHlo.after_nil, StableHlo.reshape_result', StableHlo.unary_result',
    StableHlo.reshape_result_ne', StableHlo.unary_result_ne']
  funext i
  exact congrFun (cp_shapeCast_row (W (Proc.devRef .tc main_arg9)) shapeCasts_S64_S1x64) i

theorem cp_host0_v5 : (StableHlo.after (hostOps0 (F := Ideal)) W (Proc.devRef .tc main_v5) : Cert.Spec.Arr 1 32)
    = row (W (Proc.devRef .tc main_arg11)) := by
  simp (disch := decide) only [StableHlo.after_cons, StableHlo.after_nil, StableHlo.reshape_result', StableHlo.unary_result',
    StableHlo.reshape_result_ne', StableHlo.unary_result_ne']
  funext i
  exact congrFun (cp_shapeCast_row (W (Proc.devRef .tc main_arg11)) shapeCasts_S32_S1x32) i

theorem cp_host0_v6 : (StableHlo.after (hostOps0 (F := Ideal)) W (Proc.devRef .tc main_v6) : Cert.Spec.Arr 1 64)
    = row (W (Proc.devRef .tc main_arg13)) := by
  simp (disch := decide) only [StableHlo.after_cons, StableHlo.after_nil, StableHlo.reshape_result', StableHlo.unary_result',
    StableHlo.reshape_result_ne', StableHlo.unary_result_ne']
  funext i
  exact congrFun (cp_shapeCast_row (W (Proc.devRef .tc main_arg13)) shapeCasts_S64_S1x64) i

theorem cp_host1_v8 : (StableHlo.after (hostOps1 (F := Ideal)) W (Proc.devRef .tc main_v8) : Cert.Spec.Arr 1 2048)
    = row (W (Proc.devRef .tc main_arg3)) := by
  simp (disch := decide) only [StableHlo.after_cons, StableHlo.after_nil, StableHlo.reshape_result', StableHlo.reshape_result_ne']
  funext i
  exact congrFun (cp_shapeCast_row (W (Proc.devRef .tc main_arg3)) shapeCasts_S2048_S1x2048) i

theorem cp_host1_v9 : (StableHlo.after (hostOps1 (F := Ideal)) W (Proc.devRef .tc main_v9) : Cert.Spec.Arr 1 64)
    = row (W (Proc.devRef .tc main_arg15)) := by
  simp (disch := decide) only [StableHlo.after_cons, StableHlo.after_nil, StableHlo.reshape_result', StableHlo.reshape_result_ne']
  funext i
  exact congrFun (cp_shapeCast_row (W (Proc.devRef .tc main_arg15)) shapeCasts_S64_S1x64) i

theorem cp_host2_v11 : (StableHlo.after (hostOps2 (F := Ideal)) W (Proc.devRef .tc main_v11) : Cert.Spec.Arr 1 2)
    = row (W (Proc.devRef .tc main_arg17)) := by
  simp (disch := decide) only [StableHlo.after_cons, StableHlo.after_nil, StableHlo.reshape_result', StableHlo.reshape_result_ne']
  funext i
  exact congrFun (cp_shapeCast_row (W (Proc.devRef .tc main_arg17)) shapeCasts_S2_S1x2) i

end Cert.KernelIdeal.Hand

end
-- ==== Proof.KI.ComposeVals.lean ====
import proofs.«104285_g40587440947829_cont_sun_m_1101_7_alg».proof.Proof.KI.Launch
import proofs.«104285_g40587440947829_cont_sun_m_1101_7_alg».proof.Proof.KI.ComposeHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Spec (Arr)
open Cert.ReferenceIdeal.Hand (row W16 S1 De1 M1 M2)

local notation "RVec" => Cert.ReferenceIdeal.Hand.Vec

abbrev cp_Entry : Type := (c : Dev nD) → (b : Ref sig .tc) → Buf (Elt Ideal) ((c : Thread nD τ).loc b)

structure cp_Vals : Prop where
  gate : ∀ (V : cp_Entry) (c : Dev nD), ((dat0 (F := Ideal) V c).arrAt 14 cfg0.N : Arr 10000 32) = fun j =>
    Cert.Spec.gate (V c main_arg0 : Arr 10000 128) (V c main_arg1 : Arr 10000 16) (V c main_arg4 : Arr 128 32) (V c main_v2 : Arr 1 32)
      (V c main_arg6 : Arr 16 32) (V c main_v3 : Arr 1 32) (V c main_arg8 : Arr 64 64) (V c main_v4 : Arr 1 64)
      (V c main_arg10 : Arr 64 32) (V c main_v5 : Arr 1 32) (j 0) (j 1)
  isd : ∀ (V : cp_Entry) (c : Dev nD), ((dat0 (F := Ideal) V c).arrAt 15 cfg0.N : Arr 10000 1) = fun j =>
    Cert.Spec.isd (V c main_arg2 : Arr 10000 2048) (V c main_v1 : Arr 2048 1) (j 0)
  de : ∀ (V : cp_Entry) (c : Dev nD), ((dat0 (F := Ideal) V c).arrAt 16 cfg0.N : Arr 1 2048) = fun j =>
    Cert.Spec.de (V c main_arg2 : Arr 10000 2048) (j 1)
  m1t : ∀ (V : cp_Entry) (c : Dev nD), ((dat0 (F := Ideal) V c).arrAt 17 cfg0.N : Arr 64 2048) = fun j =>
    Cert.Spec.m1t (V c main_arg2 : Arr 10000 2048) (V c main_arg0 : Arr 10000 128) (V c main_arg1 : Arr 10000 16) (V c main_v1 : Arr 2048 1)
      (V c main_arg4 : Arr 128 32) (V c main_v2 : Arr 1 32) (V c main_arg6 : Arr 16 32) (V c main_v3 : Arr 1 32)
      (V c main_arg8 : Arr 64 64) (V c main_v4 : Arr 1 64) (V c main_arg10 : Arr 64 32) (V c main_v5 : Arr 1 32)
      (V c main_arg12 : Arr 32 64) (V c main_v6 : Arr 1 64) (j 0) (j 1)
  h : ∀ (V : cp_Entry) (c : Dev nD), ((dat0 (F := Ideal) V c).arrAt 18 cfg0.N : Arr 10000 2048) = fun j =>
    (V c main_arg2 : Arr 10000 2048) j
  m2t : ∀ (V : cp_Entry) (c : Dev nD), ((dat1 (F := Ideal) V c).arrAt 7 cfg1.N : Arr 64 2048) = fun j =>
    Cert.Spec.m2t (V c main_v7_4 : Arr 10000 2048) (V c main_v7_1 : Arr 10000 1) (V c main_v7_3 : Arr 64 2048) (V c main_v8 : Arr 1 2048)
      (V c main_v7_2 : Arr 1 2048) (V c main_arg14 : Arr 64 64) (V c main_v9 : Arr 1 64) (j 0) (j 1)
  logits : ∀ (V : cp_Entry) (c : Dev nD), ((dat2 (F := Ideal) V c).arrAt 7 cfg2.N : Arr 10000 2) = fun j =>
    Cert.Spec.logits (V c main_v7_4 : Arr 10000 2048) (V c main_v7_1 : Arr 10000 1) (V c main_v10 : Arr 64 2048) (V c main_v8 : Arr 1 2048)
      (V c main_v7_2 : Arr 1 2048) (V c main_arg16 : Arr 64 2) (V c main_v11 : Arr 1 2) (j 0) (j 1)

variable (m : (ℓ : Loc nD τ sig) → Buf (Elt Ideal) ℓ)

section Args
variable (c : Dev nD)

abbrev cp_aX : Arr 10000 128 := m ((c : Thread nD τ).loc main_arg0)
abbrev cp_aZ : Arr 10000 16 := m ((c : Thread nD τ).loc main_arg1)
abbrev cp_aH : Arr 10000 2048 := m ((c : Thread nD τ).loc main_arg2)
abbrev cp_aW : RVec 2048 := m ((c : Thread nD τ).loc main_arg3)

abbrev cp_aPsiW : Arr 128 32 := m ((c : Thread nD τ).loc main_arg4)
abbrev cp_aPsib : RVec 32 := m ((c : Thread nD τ).loc main_arg5)
abbrev cp_aPhiW : Arr 16 32 := m ((c : Thread nD τ).loc main_arg6)
abbrev cp_aPhib : RVec 32 := m ((c : Thread nD τ).loc main_arg7)
abbrev cp_aG1W : Arr 64 64 := m ((c : Thread nD τ).loc main_arg8)
abbrev cp_aG1b : RVec 64 := m ((c : Thread nD τ).loc main_arg9)
abbrev cp_aG2W : Arr 64 32 := m ((c : Thread nD τ).loc main_arg10)
abbrev cp_aG2b : RVec 32 := m ((c : Thread nD τ).loc main_arg11)
abbrev cp_aC1W : Arr 32 64 := m ((c : Thread nD τ).loc main_arg12)
abbrev cp_aC1b : RVec 64 := m ((c : Thread nD τ).loc main_arg13)
abbrev cp_aC2W : Arr 64 64 := m ((c : Thread nD τ).loc main_arg14)
abbrev cp_aC2b : RVec 64 := m ((c : Thread nD τ).loc main_arg15)
abbrev cp_aHdW : Arr 64 2 := m ((c : Thread nD τ).loc main_arg16)
abbrev cp_aHdb : RVec 2 := m ((c : Thread nD τ).loc main_arg17)
end Args

theorem cp_ent1_arg (c : Dev nD) (b : Ref sig .tc) (h0 : b ∉ hostOps0_W) : ent1 m c b = m ((c : Thread nD τ).loc b) :=
  StableHlo.after_of_writes_sub hostOps0 _ hostOps0_writes h0

theorem cp_bnd2_arg (c : Dev nD) (b : Ref sig .tc) (h0 : b ∉ hostOps0_W) (hw : ∀ w, Pipeline.arrRef spec0 w ≠ b) :
    bnd2 m c (Proc.devRef .tc b) = m ((c : Thread nD τ).loc b) :=
  (bnd2_of_ne m c b hw).trans (cp_ent1_arg m c b h0)

theorem cp_bnd4_arg (c : Dev nD) (b : Ref sig .tc) (h0 : b ∉ hostOps0_W) (hw0 : ∀ w, Pipeline.arrRef spec0 w ≠ b)
    (h1 : b ∉ hostOps1_W) (hw1 : ∀ w, Pipeline.arrRef spec1 w ≠ b) :
    bnd4 m c (Proc.devRef .tc b) = m ((c : Thread nD τ).loc b) :=
  calc bnd4 m c (Proc.devRef .tc b)
    _ = bnd3 m c (Proc.devRef .tc b) := bnd4_of_ne m c b hw1
    _ = bnd2 m c (Proc.devRef .tc b) := StableHlo.after_of_writes_sub hostOps1 _ hostOps1_writes h1
    _ = m ((c : Thread nD τ).loc b) := cp_bnd2_arg m c b h0 hw0

theorem cp_ent1_a0 (c : Dev nD) : (ent1 m c main_arg0 : Arr 10000 128) = cp_aX m c := cp_ent1_arg m c main_arg0 (by decide)
theorem cp_ent1_a1 (c : Dev nD) : (ent1 m c main_arg1 : Arr 10000 16) = cp_aZ m c := cp_ent1_arg m c main_arg1 (by decide)
theorem cp_ent1_a2 (c : Dev nD) : (ent1 m c main_arg2 : Arr 10000 2048) = cp_aH m c := cp_ent1_arg m c main_arg2 (by decide)
theorem cp_ent1_a4 (c : Dev nD) : (ent1 m c main_arg4 : Arr 128 32) = cp_aPsiW m c := cp_ent1_arg m c main_arg4 (by decide)
theorem cp_ent1_a6 (c : Dev nD) : (ent1 m c main_arg6 : Arr 16 32) = cp_aPhiW m c := cp_ent1_arg m c main_arg6 (by decide)
theorem cp_ent1_a8 (c : Dev nD) : (ent1 m c main_arg8 : Arr 64 64) = cp_aG1W m c := cp_ent1_arg m c main_arg8 (by decide)
theorem cp_ent1_a10 (c : Dev nD) : (ent1 m c main_arg10 : Arr 64 32) = cp_aG2W m c := cp_ent1_arg m c main_arg10 (by decide)
theorem cp_ent1_a12 (c : Dev nD) : (ent1 m c main_arg12 : Arr 32 64) = cp_aC1W m c := cp_ent1_arg m c main_arg12 (by decide)

theorem cp_ent1_v1 (c : Dev nD) : (ent1 m c main_v1 : Arr 2048 1) = W16 (cp_aW m c) := cp_host0_v1 (bnd0 m c)
theorem cp_ent1_v2 (c : Dev nD) : (ent1 m c main_v2 : Arr 1 32) = row (cp_aPsib m c) := cp_host0_v2 (bnd0 m c)
theorem cp_ent1_v3 (c : Dev nD) : (ent1 m c main_v3 : Arr 1 32) = row (cp_aPhib m c) := cp_host0_v3 (bnd0 m c)
theorem cp_ent1_v4 (c : Dev nD) : (ent1 m c main_v4 : Arr 1 64) = row (cp_aG1b m c) := cp_host0_v4 (bnd0 m c)
theorem cp_ent1_v5 (c : Dev nD) : (ent1 m c main_v5 : Arr 1 32) = row (cp_aG2b m c) := cp_host0_v5 (bnd0 m c)
theorem cp_ent1_v6 (c : Dev nD) : (ent1 m c main_v6 : Arr 1 64) = row (cp_aC1b m c) := cp_host0_v6 (bnd0 m c)

theorem cp_gate_of_vals (hv : cp_Vals) (c : Dev nD) : ((dat0 (F := Ideal) (ent1 m) c).arrAt 14 cfg0.N : Arr 10000 32) = fun j =>
    Cert.Spec.gate (cp_aX m c) (cp_aZ m c) (cp_aPsiW m c) (row (cp_aPsib m c)) (cp_aPhiW m c) (row (cp_aPhib m c)) (cp_aG1W m c) (row (cp_aG1b m c))
      (cp_aG2W m c) (row (cp_aG2b m c)) (j 0) (j 1) := by
  have e := hv.gate (ent1 m) c
  rw [cp_ent1_a0 m c, cp_ent1_a1 m c, cp_ent1_a4 m c, cp_ent1_v2 m c, cp_ent1_a6 m c, cp_ent1_v3 m c, cp_ent1_a8 m c, cp_ent1_v4 m c, cp_ent1_a10 m c,
    cp_ent1_v5 m c] at e
  exact e

theorem cp_out0_h (hv : cp_Vals) (c : Dev nD) : ((dat0 (F := Ideal) (ent1 m) c).arrAt 18 cfg0.N : Arr 10000 2048) = cp_aH m c :=
  (hv.h (ent1 m) c).trans (cp_ent1_a2 m c)

theorem cp_out0_s (hv : cp_Vals) (c : Dev nD) : ((dat0 (F := Ideal) (ent1 m) c).arrAt 15 cfg0.N : Arr 10000 1) = S1 (cp_aH m c) (cp_aW m c) := by
  have e := hv.isd (ent1 m) c
  rw [cp_ent1_a2 m c, cp_ent1_v1 m c] at e
  exact e

theorem cp_out0_de (hv : cp_Vals) (c : Dev nD) : ((dat0 (F := Ideal) (ent1 m) c).arrAt 16 cfg0.N : Arr 1 2048) = De1 (cp_aH m c) := by
  have e := hv.de (ent1 m) c
  rw [cp_ent1_a2 m c] at e
  exact e

theorem cp_out0_m1 (hv : cp_Vals) (c : Dev nD) : ((dat0 (F := Ideal) (ent1 m) c).arrAt 17 cfg0.N : Arr 64 2048)
    = M1 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) := by
  have e := hv.m1t (ent1 m) c
  rw [cp_ent1_a2 m c, cp_ent1_a0 m c, cp_ent1_a1 m c, cp_ent1_v1 m c, cp_ent1_a4 m c, cp_ent1_v2 m c, cp_ent1_a6 m c, cp_ent1_v3 m c, cp_ent1_a8 m c, cp_ent1_v4 m c,
    cp_ent1_a10 m c, cp_ent1_v5 m c, cp_ent1_a12 m c, cp_ent1_v6 m c] at e
  exact e

theorem cp_ent3_v7_4 (hv : cp_Vals) (c : Dev nD) : (ent3 m c main_v7_4 : Arr 10000 2048) = cp_aH m c :=
  calc (ent3 m c main_v7_4 : Arr 10000 2048)
    _ = bnd2 m c (Proc.devRef .tc main_v7_4) := StableHlo.after_of_writes_sub hostOps1 _ hostOps1_writes (by decide)
    _ = (dat0 (F := Ideal) (ent1 m) c).arrAt 18 cfg0.N := bnd2_arr m c 18
    _ = cp_aH m c := cp_out0_h m hv c
theorem cp_ent3_v7_1 (hv : cp_Vals) (c : Dev nD) : (ent3 m c main_v7_1 : Arr 10000 1) = S1 (cp_aH m c) (cp_aW m c) :=
  calc (ent3 m c main_v7_1 : Arr 10000 1)
    _ = bnd2 m c (Proc.devRef .tc main_v7_1) := StableHlo.after_of_writes_sub hostOps1 _ hostOps1_writes (by decide)
    _ = (dat0 (F := Ideal) (ent1 m) c).arrAt 15 cfg0.N := bnd2_arr m c 15
    _ = S1 (cp_aH m c) (cp_aW m c) := cp_out0_s m hv c
theorem cp_ent3_v7_2 (hv : cp_Vals) (c : Dev nD) : (ent3 m c main_v7_2 : Arr 1 2048) = De1 (cp_aH m c) :=
  calc (ent3 m c main_v7_2 : Arr 1 2048)
    _ = bnd2 m c (Proc.devRef .tc main_v7_2) := StableHlo.after_of_writes_sub hostOps1 _ hostOps1_writes (by decide)
    _ = (dat0 (F := Ideal) (ent1 m) c).arrAt 16 cfg0.N := bnd2_arr m c 16
    _ = De1 (cp_aH m c) := cp_out0_de m hv c
theorem cp_ent3_v7_3 (hv : cp_Vals) (c : Dev nD) : (ent3 m c main_v7_3 : Arr 64 2048)
    = M1 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) :=
  calc (ent3 m c main_v7_3 : Arr 64 2048)
    _ = bnd2 m c (Proc.devRef .tc main_v7_3) := StableHlo.after_of_writes_sub hostOps1 _ hostOps1_writes (by decide)
    _ = (dat0 (F := Ideal) (ent1 m) c).arrAt 17 cfg0.N := bnd2_arr m c 17
    _ = _ := cp_out0_m1 m hv c
theorem cp_ent3_v8 (c : Dev nD) : (ent3 m c main_v8 : Arr 1 2048) = row (cp_aW m c) :=
  (cp_host1_v8 (bnd2 m c)).trans (congrArg (row (d := 2048)) (cp_bnd2_arg m c main_arg3 (by decide) (by decide)))
theorem cp_ent3_a14 (c : Dev nD) : (ent3 m c main_arg14 : Arr 64 64) = cp_aC2W m c :=
  calc (ent3 m c main_arg14 : Arr 64 64)
    _ = bnd2 m c (Proc.devRef .tc main_arg14) := StableHlo.after_of_writes_sub hostOps1 _ hostOps1_writes (by decide)
    _ = cp_aC2W m c := cp_bnd2_arg m c main_arg14 (by decide) (by decide)
theorem cp_ent3_v9 (c : Dev nD) : (ent3 m c main_v9 : Arr 1 64) = row (cp_aC2b m c) :=
  (cp_host1_v9 (bnd2 m c)).trans (congrArg (row (d := 64)) (cp_bnd2_arg m c main_arg15 (by decide) (by decide)))

theorem cp_out1_m2 (hv : cp_Vals) (c : Dev nD) : ((dat1 (F := Ideal) (ent3 m) c).arrAt 7 cfg1.N : Arr 64 2048)
    = M2 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) (cp_aC2W m c) (cp_aC2b m c) := by
  have e := hv.m2t (ent3 m) c
  rw [cp_ent3_v7_4 m hv c, cp_ent3_v7_1 m hv c, cp_ent3_v7_3 m hv c, cp_ent3_v8 m c, cp_ent3_v7_2 m hv c, cp_ent3_a14 m c, cp_ent3_v9 m c] at e
  exact e

theorem cp_ent5_v7_4 (hv : cp_Vals) (c : Dev nD) : (ent5 m c main_v7_4 : Arr 10000 2048) = cp_aH m c :=
  calc (ent5 m c main_v7_4 : Arr 10000 2048)
    _ = bnd4 m c (Proc.devRef .tc main_v7_4) := StableHlo.after_of_writes_sub hostOps2 _ hostOps2_writes (by decide)
    _ = ent3 m c main_v7_4 := (bnd4_arr m c 0).trans (((dat1 (ent3 m) c).arrAt_in 0 rfl _).trans (A_eq1 (ent3 m) c 0))
    _ = cp_aH m c := cp_ent3_v7_4 m hv c
theorem cp_ent5_v7_1 (hv : cp_Vals) (c : Dev nD) : (ent5 m c main_v7_1 : Arr 10000 1) = S1 (cp_aH m c) (cp_aW m c) :=
  calc (ent5 m c main_v7_1 : Arr 10000 1)
    _ = bnd4 m c (Proc.devRef .tc main_v7_1) := StableHlo.after_of_writes_sub hostOps2 _ hostOps2_writes (by decide)
    _ = ent3 m c main_v7_1 := (bnd4_arr m c 1).trans (((dat1 (ent3 m) c).arrAt_in 1 rfl _).trans (A_eq1 (ent3 m) c 1))
    _ = S1 (cp_aH m c) (cp_aW m c) := cp_ent3_v7_1 m hv c
theorem cp_ent5_v7_2 (hv : cp_Vals) (c : Dev nD) : (ent5 m c main_v7_2 : Arr 1 2048) = De1 (cp_aH m c) :=
  calc (ent5 m c main_v7_2 : Arr 1 2048)
    _ = bnd4 m c (Proc.devRef .tc main_v7_2) := StableHlo.after_of_writes_sub hostOps2 _ hostOps2_writes (by decide)
    _ = ent3 m c main_v7_2 := (bnd4_arr m c 4).trans (((dat1 (ent3 m) c).arrAt_in 4 rfl _).trans (A_eq1 (ent3 m) c 4))
    _ = De1 (cp_aH m c) := cp_ent3_v7_2 m hv c
theorem cp_ent5_v8 (c : Dev nD) : (ent5 m c main_v8 : Arr 1 2048) = row (cp_aW m c) :=
  calc (ent5 m c main_v8 : Arr 1 2048)
    _ = bnd4 m c (Proc.devRef .tc main_v8) := StableHlo.after_of_writes_sub hostOps2 _ hostOps2_writes (by decide)
    _ = ent3 m c main_v8 := (bnd4_arr m c 3).trans (((dat1 (ent3 m) c).arrAt_in 3 rfl _).trans (A_eq1 (ent3 m) c 3))
    _ = row (cp_aW m c) := cp_ent3_v8 m c
theorem cp_ent5_v10 (hv : cp_Vals) (c : Dev nD) : (ent5 m c main_v10 : Arr 64 2048)
    = M2 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) (cp_aC2W m c) (cp_aC2b m c) :=
  calc (ent5 m c main_v10 : Arr 64 2048)
    _ = bnd4 m c (Proc.devRef .tc main_v10) := StableHlo.after_of_writes_sub hostOps2 _ hostOps2_writes (by decide)
    _ = (dat1 (F := Ideal) (ent3 m) c).arrAt 7 cfg1.N := bnd4_arr m c 7
    _ = _ := cp_out1_m2 m hv c
theorem cp_ent5_a16 (c : Dev nD) : (ent5 m c main_arg16 : Arr 64 2) = cp_aHdW m c :=
  calc (ent5 m c main_arg16 : Arr 64 2)
    _ = bnd4 m c (Proc.devRef .tc main_arg16) := StableHlo.after_of_writes_sub hostOps2 _ hostOps2_writes (by decide)
    _ = cp_aHdW m c := cp_bnd4_arg m c main_arg16 (by decide) (by decide) (by decide) (by decide)
theorem cp_ent5_v11 (c : Dev nD) : (ent5 m c main_v11 : Arr 1 2) = row (cp_aHdb m c) :=
  (cp_host2_v11 (bnd4 m c)).trans (congrArg (row (d := 2)) (cp_bnd4_arg m c main_arg17 (by decide) (by decide) (by decide) (by decide)))

theorem cp_logits_of_vals (hv : cp_Vals) (c : Dev nD) : ((dat2 (F := Ideal) (ent5 m) c).arrAt 7 cfg2.N : Arr 10000 2) = fun j =>
    Cert.Spec.logits (cp_aH m c) (S1 (cp_aH m c) (cp_aW m c))
      (M2 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) (cp_aC2W m c) (cp_aC2b m c))
      (row (cp_aW m c)) (De1 (cp_aH m c)) (cp_aHdW m c) (row (cp_aHdb m c)) (j 0) (j 1) := by
  have e := hv.logits (ent5 m) c
  rw [cp_ent5_v7_4 m hv c, cp_ent5_v7_1 m hv c, cp_ent5_v10 m hv c, cp_ent5_v8 m c, cp_ent5_v7_2 m hv c, cp_ent5_a16 m c, cp_ent5_v11 m c] at e
  exact e

end Cert.KernelIdeal.Hand

end
-- ==== Proof.KI.Val0Dot.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Plain

variable {a k b : ℕ} (D : DotDims ⟨2, ![a, k]⟩ ⟨2, ![k, b]⟩ ⟨2, ![a, b]⟩)
  (hlc : D.lhsContracting = [1]) (hrc : D.rhsContracting = [0])
  (hln : D.lhsNonContracting = [0]) (hrn : D.rhsNonContracting = [1])
  (hlb : D.lhsBatch = []) (hrb : D.rhsBatch = [])
include hlc hrc hln hrn hlb hrb

theorem v0_plain_lhs_0 (j : (⟨2, ![a, b]⟩ : Shape).Idx) (q : D.contr.Idx) : (D.lhsIdx j q 0).val = (j 0).val := by
  have key : ∀ (x y : ℕ) (hx : x < 2) (hy : y < 2), x = y → (j ⟨x, hx⟩).val = (j ⟨y, hy⟩).val :=
    fun x y hx hy h => by subst h; rfl
  have hnb : ¬(0 : Fin (⟨2, ![a, k]⟩ : Shape).rank) ∈ D.lhsBatch := by rw [hlb]; exact List.not_mem_nil
  have hin : (0 : Fin (⟨2, ![a, k]⟩ : Shape).rank) ∈ D.lhsNonContracting := by rw [hln]; exact List.mem_singleton.mpr rfl
  unfold DotDims.lhsIdx
  rw [dif_neg hnb, dif_pos hin]
  simp only [Fin.val_cast]
  exact key _ 0 _ _ (by rw [hlb, hln]; rfl)

theorem v0_plain_lhs_1 (j : (⟨2, ![a, b]⟩ : Shape).Idx) (q : D.contr.Idx) :
    (D.lhsIdx j q 1).val = (q ⟨0, by rw [D.rank_contr, hlc]; exact Nat.one_pos⟩).val :=
  D.lhsIdx_val_of_single hlc j q

theorem v0_plain_rhs_0 (j : (⟨2, ![a, b]⟩ : Shape).Idx) (q : D.contr.Idx) :
    (D.rhsIdx j q 0).val = (q ⟨0, by rw [D.rank_contr, hlc]; exact Nat.one_pos⟩).val :=
  D.rhsIdx_val_of_single hrc j q

theorem v0_plain_rhs_1 (j : (⟨2, ![a, b]⟩ : Shape).Idx) (q : D.contr.Idx) : (D.rhsIdx j q 1).val = (j 1).val := by
  have key : ∀ (x y : ℕ) (hx : x < 2) (hy : y < 2), x = y → (j ⟨x, hx⟩).val = (j ⟨y, hy⟩).val :=
    fun x y hx hy h => by subst h; rfl
  have hnb : ¬(1 : Fin (⟨2, ![k, b]⟩ : Shape).rank) ∈ D.rhsBatch := by rw [hrb]; exact List.not_mem_nil
  have hin : (1 : Fin (⟨2, ![k, b]⟩ : Shape).rank) ∈ D.rhsNonContracting := by rw [hrn]; exact List.mem_singleton.mpr rfl
  unfold DotDims.rhsIdx
  rw [dif_neg hnb, dif_pos hin]
  simp only [Fin.val_cast]
  exact key _ 1 _ _ (by rw [hlb, hln, hrn]; rfl)

theorem v0_plain_contr_rank : D.contr.rank = 1 := by rw [D.rank_contr, hlc]; rfl
theorem v0_plain_contr_size : D.contr.size ⟨0, by rw [D.rank_contr, hlc]; exact Nat.one_pos⟩ = k := by
  rw [D.size_contr 0 (by rw [hlc]; exact Nat.one_pos)]
  simp only [hlc, List.getElem_cons_zero]
  rfl

theorem v0_plain_mm_zero {φ₁ φ₂ : FTy} (l : FVec Ideal ⟨2, ![a, k]⟩ φ₁) (r : FVec Ideal ⟨2, ![k, b]⟩ φ₂) (p : Fin a) (q : Fin b) :
    matmul D none l r (constant (F := Ideal) ⟨2, ![a, b]⟩ .f32 0x00000000#32) (ix2 p q)
      = ∑ i : Fin k, l (ix2 p i) * r (ix2 i q) := by
  have hr := v0_plain_contr_rank D hlc hrc hln hrn hlb hrb
  have hs := v0_plain_contr_size D hlc hrc hln hrn hlb hrb
  simp only [matmul]
  rw [Ideal.matmul_constant_zero_apply, ← Equiv.sum_comp (contrEquiv1 D k hr hs).symm]
  refine Finset.sum_congr rfl fun i _ => ?_
  have hi := contrEquiv1_symm_val D k hr hs i
  have el : D.lhsIdx (ix2 p q) ((contrEquiv1 D k hr hs).symm i) = ix2 p i := funext fun ax => Fin.ext (by
    match ax with
    | ⟨0, _⟩ => exact v0_plain_lhs_0 D hlc hrc hln hrn hlb hrb _ _
    | ⟨1, _⟩ => exact (v0_plain_lhs_1 D hlc hrc hln hrn hlb hrb _ _).trans hi)
  have er : D.rhsIdx (ix2 p q) ((contrEquiv1 D k hr hs).symm i) = ix2 i q := funext fun ax => Fin.ext (by
    match ax with
    | ⟨0, _⟩ => exact (v0_plain_rhs_0 D hlc hrc hln hrn hlb hrb _ _).trans hi
    | ⟨1, _⟩ => exact v0_plain_rhs_1 D hlc hrc hln hrn hlb hrb _ _)
  rw [el, er]

end Plain

section Gram

variable {a k b : ℕ} (D : DotDims ⟨2, ![k, a]⟩ ⟨2, ![k, b]⟩ ⟨2, ![a, b]⟩)
  (hlc : D.lhsContracting = [0]) (hrc : D.rhsContracting = [0])
  (hln : D.lhsNonContracting = [1]) (hrn : D.rhsNonContracting = [1])
  (hlb : D.lhsBatch = []) (hrb : D.rhsBatch = [])
include hlc hrc hln hrn hlb hrb

theorem v0_gram_lhs_0 (j : (⟨2, ![a, b]⟩ : Shape).Idx) (q : D.contr.Idx) :
    (D.lhsIdx j q 0).val = (q ⟨0, by rw [D.rank_contr, hlc]; exact Nat.one_pos⟩).val :=
  D.lhsIdx_val_of_single hlc j q

theorem v0_gram_lhs_1 (j : (⟨2, ![a, b]⟩ : Shape).Idx) (q : D.contr.Idx) : (D.lhsIdx j q 1).val = (j 0).val := by
  have key : ∀ (x y : ℕ) (hx : x < 2) (hy : y < 2), x = y → (j ⟨x, hx⟩).val = (j ⟨y, hy⟩).val :=
    fun x y hx hy h => by subst h; rfl
  have hnb : ¬(1 : Fin (⟨2, ![k, a]⟩ : Shape).rank) ∈ D.lhsBatch := by rw [hlb]; exact List.not_mem_nil
  have hin : (1 : Fin (⟨2, ![k, a]⟩ : Shape).rank) ∈ D.lhsNonContracting := by rw [hln]; exact List.mem_singleton.mpr rfl
  unfold DotDims.lhsIdx
  rw [dif_neg hnb, dif_pos hin]
  simp only [Fin.val_cast]
  exact key _ 0 _ _ (by rw [hlb, hln]; rfl)

theorem v0_gram_rhs_0 (j : (⟨2, ![a, b]⟩ : Shape).Idx) (q : D.contr.Idx) :
    (D.rhsIdx j q 0).val = (q ⟨0, by rw [D.rank_contr, hlc]; exact Nat.one_pos⟩).val :=
  D.rhsIdx_val_of_single hrc j q

theorem v0_gram_rhs_1 (j : (⟨2, ![a, b]⟩ : Shape).Idx) (q : D.contr.Idx) : (D.rhsIdx j q 1).val = (j 1).val := by
  have key : ∀ (x y : ℕ) (hx : x < 2) (hy : y < 2), x = y → (j ⟨x, hx⟩).val = (j ⟨y, hy⟩).val :=
    fun x y hx hy h => by subst h; rfl
  have hnb : ¬(1 : Fin (⟨2, ![k, b]⟩ : Shape).rank) ∈ D.rhsBatch := by rw [hrb]; exact List.not_mem_nil
  have hin : (1 : Fin (⟨2, ![k, b]⟩ : Shape).rank) ∈ D.rhsNonContracting := by rw [hrn]; exact List.mem_singleton.mpr rfl
  unfold DotDims.rhsIdx
  rw [dif_neg hnb, dif_pos hin]
  simp only [Fin.val_cast]
  exact key _ 1 _ _ (by rw [hlb, hln, hrn]; rfl)

theorem v0_gram_contr_rank : D.contr.rank = 1 := by rw [D.rank_contr, hlc]; rfl
theorem v0_gram_contr_size : D.contr.size ⟨0, by rw [D.rank_contr, hlc]; exact Nat.one_pos⟩ = k := by
  rw [D.size_contr 0 (by rw [hlc]; exact Nat.one_pos)]
  simp only [hlc, List.getElem_cons_zero]
  rfl

theorem v0_gram_mm_zero {φ₁ φ₂ : FTy} (l : FVec Ideal ⟨2, ![k, a]⟩ φ₁) (r : FVec Ideal ⟨2, ![k, b]⟩ φ₂) (p : Fin a) (q : Fin b) :
    matmul D none l r (constant (F := Ideal) ⟨2, ![a, b]⟩ .f32 0x00000000#32) (ix2 p q)
      = ∑ i : Fin k, l (ix2 i p) * r (ix2 i q) := by
  have hr := v0_gram_contr_rank D hlc hrc hln hrn hlb hrb
  have hs := v0_gram_contr_size D hlc hrc hln hrn hlb hrb
  simp only [matmul]
  rw [Ideal.matmul_constant_zero_apply, ← Equiv.sum_comp (contrEquiv1 D k hr hs).symm]
  refine Finset.sum_congr rfl fun i _ => ?_
  have hi := contrEquiv1_symm_val D k hr hs i
  have el : D.lhsIdx (ix2 p q) ((contrEquiv1 D k hr hs).symm i) = ix2 i p := funext fun ax => Fin.ext (by
    match ax with
    | ⟨0, _⟩ => exact (v0_gram_lhs_0 D hlc hrc hln hrn hlb hrb _ _).trans hi
    | ⟨1, _⟩ => exact v0_gram_lhs_1 D hlc hrc hln hrn hlb hrb _ _)
  have er : D.rhsIdx (ix2 p q) ((contrEquiv1 D k hr hs).symm i) = ix2 i q := funext fun ax => Fin.ext (by
    match ax with
    | ⟨0, _⟩ => exact (v0_gram_rhs_0 D hlc hrc hln hrn hlb hrb _ _).trans hi
    | ⟨1, _⟩ => exact v0_gram_rhs_1 D hlc hrc hln hrn hlb hrb _ _)
  rw [el, er]

end Gram

theorem v0_mm_dv (l : FVec Ideal S1000x2048 .bf16) (r : FVec Ideal S2048x1 .bf16) (p : Fin 1000) (q : Fin 1) :
    matmul dot_S1000x2048_S2048x1_S1000x1_1_0_0_1_n_n none l r (constant (F := Ideal) S1000x1 .f32 0x00000000#32) (ix2 p q)
      = ∑ i : Fin 2048, l (ix2 p i) * r (ix2 i q) :=
  v0_plain_mm_zero dot_S1000x2048_S2048x1_S1000x1_1_0_0_1_n_n rfl rfl rfl rfl rfl rfl l r p q

theorem v0_mm_de (l : FVec Ideal S1x1000 .bf16) (r : FVec Ideal S1000x2048 .bf16) (p : Fin 1) (q : Fin 2048) :
    matmul dot_S1x1000_S1000x2048_S1x2048_1_0_0_1_n_n none l r (constant (F := Ideal) S1x2048 .f32 0x00000000#32) (ix2 p q)
      = ∑ i : Fin 1000, l (ix2 p i) * r (ix2 i q) :=
  v0_plain_mm_zero dot_S1x1000_S1000x2048_S1x2048_1_0_0_1_n_n rfl rfl rfl rfl rfl rfl l r p q

theorem v0_mm_x1 (l : FVec Ideal S1000x128 .f32) (r : FVec Ideal S128x32 .f32) (p : Fin 1000) (q : Fin 32) :
    matmul dot_S1000x128_S128x32_S1000x32_1_0_0_1_n_n none l r (constant (F := Ideal) S1000x32 .f32 0x00000000#32) (ix2 p q)
      = ∑ i : Fin 128, l (ix2 p i) * r (ix2 i q) :=
  v0_plain_mm_zero dot_S1000x128_S128x32_S1000x32_1_0_0_1_n_n rfl rfl rfl rfl rfl rfl l r p q

theorem v0_mm_z1 (l : FVec Ideal S1000x16 .f32) (r : FVec Ideal S16x32 .f32) (p : Fin 1000) (q : Fin 32) :
    matmul dot_S1000x16_S16x32_S1000x32_1_0_0_1_n_n none l r (constant (F := Ideal) S1000x32 .f32 0x00000000#32) (ix2 p q)
      = ∑ i : Fin 16, l (ix2 p i) * r (ix2 i q) :=
  v0_plain_mm_zero dot_S1000x16_S16x32_S1000x32_1_0_0_1_n_n rfl rfl rfl rfl rfl rfl l r p q

theorem v0_mm_g1 (l : FVec Ideal S1000x64 .f32) (r : FVec Ideal S64x64 .f32) (p : Fin 1000) (q : Fin 64) :
    matmul dot_S1000x64_S64x64_S1000x64_1_0_0_1_n_n none l r (constant (F := Ideal) S1000x64 .f32 0x00000000#32) (ix2 p q)
      = ∑ i : Fin 64, l (ix2 p i) * r (ix2 i q) :=
  v0_plain_mm_zero dot_S1000x64_S64x64_S1000x64_1_0_0_1_n_n rfl rfl rfl rfl rfl rfl l r p q

theorem v0_mm_g2 (l : FVec Ideal S1000x64 .f32) (r : FVec Ideal S64x32 .f32) (p : Fin 1000) (q : Fin 32) :
    matmul dot_S1000x64_S64x32_S1000x32_1_0_0_1_n_n none l r (constant (F := Ideal) S1000x32 .f32 0x00000000#32) (ix2 p q)
      = ∑ i : Fin 64, l (ix2 p i) * r (ix2 i q) :=
  v0_plain_mm_zero dot_S1000x64_S64x32_S1000x32_1_0_0_1_n_n rfl rfl rfl rfl rfl rfl l r p q

theorem v0_mm_c1 (l : FVec Ideal S1000x32 .f32) (r : FVec Ideal S32x64 .f32) (p : Fin 1000) (q : Fin 64) :
    matmul dot_S1000x32_S32x64_S1000x64_1_0_0_1_n_n none l r (constant (F := Ideal) S1000x64 .f32 0x00000000#32) (ix2 p q)
      = ∑ i : Fin 32, l (ix2 p i) * r (ix2 i q) :=
  v0_plain_mm_zero dot_S1000x32_S32x64_S1000x64_1_0_0_1_n_n rfl rfl rfl rfl rfl rfl l r p q

theorem v0_mm_m1 (l : FVec Ideal S1000x64 .bf16) (r : FVec Ideal S1000x2048 .bf16) (p : Fin 64) (q : Fin 2048) :
    matmul dot_S1000x64_S1000x2048_S64x2048_0_0_1_1_n_n none l r (constant (F := Ideal) S64x2048 .f32 0x00000000#32) (ix2 p q)
      = ∑ i : Fin 1000, l (ix2 i p) * r (ix2 i q) :=
  v0_gram_mm_zero dot_S1000x64_S1000x2048_S64x2048_0_0_1_1_n_n rfl rfl rfl rfl rfl rfl l r p q

theorem v0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem v0_logistic_apply {s : Shape} {φ : FTy} (v : FVec Ideal s φ) (i : s.Idx) : logistic v i = Ideal.logistic (v i) := rfl
theorem v0_rsqrt_apply {s : Shape} {φ : FTy} (v : FVec Ideal s φ) (i : s.Idx) : rsqrt v i = Ideal.rsqrt (v i) := rfl

theorem v0_one_bf16 : Ideal.ofBits .bf16 0x3F80#16 = 1 := IdealRules.sign_bit.ideal_onePat .bf16

end Cert.KernelIdeal.Hand

end
-- ==== Proof.KI.Val0Pay.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Dot

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem v0_lin_row {n n' k d : ℕ} (x : Cert.Spec.Arr n k) (x' : Cert.Spec.Arr n' k) (W : Cert.Spec.Arr k d) (b : Cert.Spec.Arr 1 d)
    (p : Fin n) (i : Fin n') (h : ∀ m, x (ix2 p m) = x' (ix2 i m)) (q : Fin d) :
    Cert.Spec.lin x W b p q = Cert.Spec.lin x' W b i q := by
  unfold Cert.Spec.lin
  exact congrArg (· + b (ix2 0 q)) (Finset.sum_congr rfl fun m _ => by rw [h m])

theorem v0_cat_row {n n' : ℕ} (a b : Fin n → Fin 32 → EReal) (a' b' : Fin n' → Fin 32 → EReal) (p : Fin n) (i : Fin n')
    (ha : ∀ q, a p q = a' i q) (hb : ∀ q, b p q = b' i q) (m : Fin 64) :
    Cert.Spec.cat a b p m = Cert.Spec.cat a' b' i m := by
  unfold Cert.Spec.cat
  split
  · exact ha _
  · exact hb _

theorem v0_pay7_apply (xb : Vec Ideal S1000x128 .f32) (W : Vec Ideal S128x32 .f32) (b : Vec Ideal S1x32 .f32) (p : Fin 1000) (q : Fin 32) :
    k0_pay7 xb W b (ix2 p q) = Cert.Spec.lin (n := 1000) (k := 128) (d := 32) xb W b p q := by
  unfold k0_pay7 Cert.Spec.lin
  rw [addf_apply, v0_mm_x1, shapeCast_self, broadcastTo_1b_ab_apply]

theorem v0_pay8_apply (zb : Vec Ideal S1000x16 .f32) (W : Vec Ideal S16x32 .f32) (b : Vec Ideal S1x32 .f32) (p : Fin 1000) (q : Fin 32) :
    k0_pay8 zb W b (ix2 p q) = Cert.Spec.lin (n := 1000) (k := 16) (d := 32) zb W b p q := by
  unfold k0_pay8 Cert.Spec.lin
  rw [addf_apply, v0_mm_z1, shapeCast_self, broadcastTo_1b_ab_apply]

theorem v0_pay4_apply (Hb : Vec Ideal S1000x2048 .f32) (i : S1000x2048.Idx) : k0_pay4 Hb i = Hb i := rfl

theorem v0_cat_apply (u v : FVec Ideal S1000x32 .f32) (p : Fin 1000) (m : Fin 64) :
    concatenate S1000x64 1 [⟨S1000x32, u⟩, ⟨S1000x32, v⟩] concatenates_S1000x32_S1000x32_S1000x64_d1 (ix2 p m)
      = Cert.Spec.cat (fun i j => u (ix2 i j)) (fun i j => v (ix2 i j)) p m := by
  unfold Cert.Spec.cat
  split
  · next h =>
    exact concatenate_pair_apply_left (1 : Fin S1000x64.rank) u v _ (ix2 p m) rfl (ix2 p ⟨m.val, h⟩)
      (fun b => match b with | ⟨0, _⟩ => rfl | ⟨1, _⟩ => rfl)
  · next h =>
    exact concatenate_pair_apply_right (1 : Fin S1000x64.rank) u v _ (ix2 p m) rfl rfl (ix2 p ⟨m.val - 32, by omega⟩)
      (fun b hb => match b, hb with | ⟨0, _⟩, _ => rfl | ⟨1, _⟩, hb => absurd rfl hb)
      (by show (m.val - 32) + 32 = m.val; omega)

theorem v0_gate_tile (xb : Vec Ideal S1000x128 .f32) (zb : Vec Ideal S1000x16 .f32)
    (psiW : Vec Ideal S128x32 .f32) (psib : Vec Ideal S1x32 .f32) (phiW : Vec Ideal S16x32 .f32) (phib : Vec Ideal S1x32 .f32)
    (g1W : Vec Ideal S64x64 .f32) (g1b : Vec Ideal S1x64 .f32) (g2W : Vec Ideal S64x32 .f32) (g2b : Vec Ideal S1x32 .f32)
    (x : Cert.Spec.Arr 10000 128) (z : Cert.Spec.Arr 10000 16) (p : Fin 1000) (i : Fin 10000)
    (hx : ∀ m, xb (ix2 p m) = x (ix2 i m)) (hz : ∀ m, zb (ix2 p m) = z (ix2 i m)) (q : Fin 32) :
    k0_pay9 (k0_pay7 xb psiW psib) zb phiW phib g1W g1b g2W g2b (ix2 p q)
      = Cert.Spec.gate x z psiW psib phiW phib g1W g1b g2W g2b i q := by
  have e1 : ∀ m : Fin 64,
      concatenate S1000x64 1 [⟨S1000x32, k0_pay7 xb psiW psib⟩, ⟨S1000x32, k0_pay8 zb phiW phib⟩]
          concatenates_S1000x32_S1000x32_S1000x64_d1 (ix2 p m)
        = Cert.Spec.cat (Cert.Spec.lin x psiW psib) (Cert.Spec.lin z phiW phib) i m := fun m => by
    rw [v0_cat_apply]
    exact v0_cat_row _ _ _ _ p i
      (fun q => (v0_pay7_apply xb psiW psib p q).trans (v0_lin_row (n := 1000) (k := 128) (d := 32) xb x psiW psib p i hx q))
      (fun q => (v0_pay8_apply zb phiW phib p q).trans (v0_lin_row (n := 1000) (k := 16) (d := 32) zb z phiW phib p i hz q)) m
  unfold k0_pay9 Cert.Spec.gate Cert.Spec.gh Cert.Spec.zero
  simp only [shapeCast_self]
  rw [v0_logistic_apply, addf_apply, v0_mm_g2, broadcastTo_1b_ab_apply]
  refine congrArg Ideal.logistic (congrArg (· + g2b (ix2 0 q)) (Finset.sum_congr rfl fun k _ => ?_))
  rw [maximumf_apply, addf_apply, v0_mm_g1, broadcastTo_1b_ab_apply, broadcast_apply]
  refine congrArg (fun y => max (y + g1b (ix2 0 k)) (Ideal.ofBits .f32 0x00000000#32) * g2W (ix2 k q))
    (Finset.sum_congr rfl fun m _ => ?_)
  rw [e1 m]

theorem v0_isd_tile (Hb : Vec Ideal S1000x2048 .f32) (wb : Vec Ideal S2048x1 .bf16) (H : Cert.Spec.Arr 10000 2048)
    (p : Fin 1000) (i : Fin 10000) (hH : ∀ m, Hb (ix2 p m) = H (ix2 i m)) (u : Fin 1) :
    k0_pay5 Hb wb (ix2 p u) = Cert.Spec.isd H wb i := by
  obtain rfl : u = 0 := Subsingleton.elim _ _
  unfold k0_pay5 Cert.Spec.isd Cert.Spec.dv Cert.Spec.eps
  rw [v0_rsqrt_apply, addf_apply, v0_mm_dv, shapeCast_self, broadcast_apply]
  refine congrArg Ideal.rsqrt (congrArg (· + Ideal.ofBits .f32 0x3089705F#32) (Finset.sum_congr rfl fun m _ => ?_))
  rw [v0_pay4_apply, hH m]

theorem v0_xn1_tile (Hb : Vec Ideal S1000x2048 .f32) (wb : Vec Ideal S2048x1 .bf16)
    (xb : Vec Ideal S1000x128 .f32) (zb : Vec Ideal S1000x16 .f32)
    (psiW : Vec Ideal S128x32 .f32) (psib : Vec Ideal S1x32 .f32) (phiW : Vec Ideal S16x32 .f32) (phib : Vec Ideal S1x32 .f32)
    (g1W : Vec Ideal S64x64 .f32) (g1b : Vec Ideal S1x64 .f32) (g2W : Vec Ideal S64x32 .f32) (g2b : Vec Ideal S1x32 .f32)
    (c1W : Vec Ideal S32x64 .f32) (c1b : Vec Ideal S1x64 .f32)
    (H : Cert.Spec.Arr 10000 2048) (x : Cert.Spec.Arr 10000 128) (z : Cert.Spec.Arr 10000 16) (p : Fin 1000) (i : Fin 10000)
    (hH : ∀ m, Hb (ix2 p m) = H (ix2 i m)) (hx : ∀ m, xb (ix2 p m) = x (ix2 i m)) (hz : ∀ m, zb (ix2 p m) = z (ix2 i m))
    (d : Fin 64) :
    k0_pay10 (k0_pay5 Hb wb) (k0_pay7 xb psiW psib) zb phiW phib g1W g1b g2W g2b c1W c1b (ix2 p d)
      = Cert.Spec.xn1 H x z wb psiW psib phiW phib g1W g1b g2W g2b c1W c1b i d := by
  unfold k0_pay10 Cert.Spec.xn1 Cert.Spec.fused Cert.Spec.one
  rw [mulf_apply, addf_apply, v0_mm_c1, shapeCast_self, broadcastTo_1b_ab_apply, v0_broadcastTo_a1_ab_apply,
    v0_isd_tile Hb wb H p i hH 0]
  refine congrArg (fun y => (y + c1b (ix2 0 d)) * Cert.Spec.isd H wb i) (Finset.sum_congr rfl fun m _ => ?_)
  rw [addf_apply, mulf_apply, mulf_apply, subf_apply,
    v0_gate_tile xb zb psiW psib phiW phib g1W g1b g2W g2b x z p i hx hz m,
    v0_pay8_apply, v0_pay7_apply, v0_lin_row (n := 1000) (k := 16) (d := 32) zb z phiW phib p i hz m,
    v0_lin_row (n := 1000) (k := 128) (d := 32) xb x psiW psib p i hx m]
  rfl

theorem v0_pay2_apply (i : S1x2048.Idx) : (k0_pay2 (F := Ideal)) i = 0 := Ideal.ofBits_zero_f32
theorem v0_pay3_apply (i : S64x2048.Idx) : (k0_pay3 (F := Ideal)) i = 0 := Ideal.ofBits_zero_f32

theorem v0_pay6_apply (Hb : Vec Ideal S1000x2048 .f32) (acc : Vec Ideal S1x2048 .f32) (u : Fin 1) (q : Fin 2048) :
    k0_pay6 Hb acc (ix2 u q) = acc (ix2 u q) + ∑ p : Fin 1000, Hb (ix2 p q) := by
  unfold k0_pay6
  rw [addf_apply, shapeCast_self, v0_mm_de]
  refine congrArg (acc (ix2 u q) + ·) (Finset.sum_congr rfl fun p _ => ?_)
  rw [broadcast_apply, v0_pay4_apply]
  show Ideal.ofBits .bf16 0x3F80#16 * Hb (ix2 p q) = Hb (ix2 p q)
  rw [v0_one_bf16, one_mul]

theorem v0_pay1_apply (hb : FVec Ideal S1000x2048 .bf16) (xn : FVec Ideal S1000x64 .f32) (acc : Vec Ideal S64x2048 .f32)
    (d : Fin 64) (q : Fin 2048) :
    k0_pay1 hb xn acc (ix2 d q) = acc (ix2 d q) + ∑ p : Fin 1000, xn (ix2 p d) * hb (ix2 p q) := by
  unfold k0_pay1
  rw [addf_apply, shapeCast_self, v0_mm_m1]
  rfl

end Cert.KernelIdeal.Hand

end
-- ==== Proof.KI.Val0Blk.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem v0_N0_eq : cfg0.N = 10 := N_0

def v0_row0 (t : Fin cfg0.N) (p : Fin 1000) : Fin 10000 :=
  ⟨t.val * 1000 + p.val, by have := t.isLt; have := v0_N0_eq; omega⟩

theorem v0_row0_val (t : Fin cfg0.N) (p : Fin 1000) : (v0_row0 t p).val = t.val * 1000 + p.val := rfl

theorem v0_idx0_0 : ∀ t : Fin grid0.N, win0_0.index t 0 = t.val ∧ win0_0.index t 1 = 0 := by decide +kernel
theorem v0_idx0_1 : ∀ t : Fin grid0.N, win0_1.index t 0 = t.val ∧ win0_1.index t 1 = 0 := by decide +kernel
theorem v0_idx0_2 : ∀ t : Fin grid0.N, win0_2.index t 0 = t.val ∧ win0_2.index t 1 = 0 := by decide +kernel
theorem v0_idx0_3 : ∀ (t : Fin grid0.N) (a : Fin 2), win0_3.index t a = 0 := by decide +kernel
theorem v0_idx0_4 : ∀ (t : Fin grid0.N) (a : Fin 2), win0_4.index t a = 0 := by decide +kernel
theorem v0_idx0_5 : ∀ (t : Fin grid0.N) (a : Fin 2), win0_5.index t a = 0 := by decide +kernel
theorem v0_idx0_6 : ∀ (t : Fin grid0.N) (a : Fin 2), win0_6.index t a = 0 := by decide +kernel
theorem v0_idx0_7 : ∀ (t : Fin grid0.N) (a : Fin 2), win0_7.index t a = 0 := by decide +kernel
theorem v0_idx0_8 : ∀ (t : Fin grid0.N) (a : Fin 2), win0_8.index t a = 0 := by decide +kernel
theorem v0_idx0_9 : ∀ (t : Fin grid0.N) (a : Fin 2), win0_9.index t a = 0 := by decide +kernel
theorem v0_idx0_10 : ∀ (t : Fin grid0.N) (a : Fin 2), win0_10.index t a = 0 := by decide +kernel
theorem v0_idx0_11 : ∀ (t : Fin grid0.N) (a : Fin 2), win0_11.index t a = 0 := by decide +kernel
theorem v0_idx0_12 : ∀ (t : Fin grid0.N) (a : Fin 2), win0_12.index t a = 0 := by decide +kernel
theorem v0_idx0_13 : ∀ (t : Fin grid0.N) (a : Fin 2), win0_13.index t a = 0 := by decide +kernel
theorem v0_idx0_14 : ∀ t : Fin grid0.N, win0_14.index t 0 = t.val ∧ win0_14.index t 1 = 0
    ∧ win0_14.xsize (grid0.coords t) 0 = 1000 ∧ win0_14.xsize (grid0.coords t) 1 = 32 := by decide +kernel
theorem v0_idx0_15 : ∀ t : Fin grid0.N, win0_15.index t 0 = t.val ∧ win0_15.index t 1 = 0
    ∧ win0_15.xsize (grid0.coords t) 0 = 1000 ∧ win0_15.xsize (grid0.coords t) 1 = 1 := by decide +kernel
theorem v0_idx0_16 : ∀ t : Fin grid0.N, win0_16.index t 0 = 0 ∧ win0_16.index t 1 = 0
    ∧ win0_16.xsize (grid0.coords t) 0 = 1 ∧ win0_16.xsize (grid0.coords t) 1 = 2048 := by decide +kernel
theorem v0_idx0_17 : ∀ t : Fin grid0.N, win0_17.index t 0 = 0 ∧ win0_17.index t 1 = 0
    ∧ win0_17.xsize (grid0.coords t) 0 = 64 ∧ win0_17.xsize (grid0.coords t) 1 = 2048 := by decide +kernel
theorem v0_idx0_18 : ∀ t : Fin grid0.N, win0_18.index t 0 = t.val ∧ win0_18.index t 1 = 0
    ∧ win0_18.xsize (grid0.coords t) 0 = 1000 ∧ win0_18.xsize (grid0.coords t) 1 = 2048 := by decide +kernel

theorem v0_Hb0_apply (c : Dev nD) (t : Fin cfg0.N) (p : Fin 1000) (m : Fin 2048) (i : Fin 10000) (hi : i.val = t.val * 1000 + p.val) :
    Hb0 V c t (ix2 p m) = (V c main_arg2 : Cert.Spec.Arr 10000 2048) (ix2 i m) := by
  unfold Hb0 iblk0
  rw [View.read_apply]
  show V c main_arg2 _ = V c main_arg2 _
  congr 1
  funext a
  apply Fin.ext
  match a with
  | ⟨0, _⟩ => show win0_0.index t 0 * 1000 + 1 * p.val = i.val; rw [(v0_idx0_0 t).1, hi]; omega
  | ⟨1, _⟩ => show win0_0.index t 1 * 2048 + 1 * m.val = m.val; rw [(v0_idx0_0 t).2]; omega

theorem v0_xb0_apply (c : Dev nD) (t : Fin cfg0.N) (p : Fin 1000) (m : Fin 128) (i : Fin 10000) (hi : i.val = t.val * 1000 + p.val) :
    xb0 V c t (ix2 p m) = (V c main_arg0 : Cert.Spec.Arr 10000 128) (ix2 i m) := by
  unfold xb0 iblk0
  rw [View.read_apply]
  show V c main_arg0 _ = V c main_arg0 _
  congr 1
  funext a
  apply Fin.ext
  match a with
  | ⟨0, _⟩ => show win0_1.index t 0 * 1000 + 1 * p.val = i.val; rw [(v0_idx0_1 t).1, hi]; omega
  | ⟨1, _⟩ => show win0_1.index t 1 * 128 + 1 * m.val = m.val; rw [(v0_idx0_1 t).2]; omega

theorem v0_zb0_apply (c : Dev nD) (t : Fin cfg0.N) (p : Fin 1000) (m : Fin 16) (i : Fin 10000) (hi : i.val = t.val * 1000 + p.val) :
    zb0 V c t (ix2 p m) = (V c main_arg1 : Cert.Spec.Arr 10000 16) (ix2 i m) := by
  unfold zb0 iblk0
  rw [View.read_apply]
  show V c main_arg1 _ = V c main_arg1 _
  congr 1
  funext a
  apply Fin.ext
  match a with
  | ⟨0, _⟩ => show win0_2.index t 0 * 1000 + 1 * p.val = i.val; rw [(v0_idx0_2 t).1, hi]; omega
  | ⟨1, _⟩ => show win0_2.index t 1 * 16 + 1 * m.val = m.val; rw [(v0_idx0_2 t).2]; omega

theorem v0_wb0_eq (c : Dev nD) (t : Fin cfg0.N) : wb0 V c t = (V c main_v1 : Cert.Spec.Arr 2048 1) :=
  funext fun y => congrArg (V c main_v1) (funext fun a => Fin.ext (win0_3.rect_emb_val_of_index_zero t a (v0_idx0_3 t a) y))
theorem v0_psiW0_eq (c : Dev nD) (t : Fin cfg0.N) : psiW0 V c t = (V c main_arg4 : Cert.Spec.Arr 128 32) :=
  funext fun y => congrArg (V c main_arg4) (funext fun a => Fin.ext (win0_4.rect_emb_val_of_index_zero t a (v0_idx0_4 t a) y))
theorem v0_psib0_eq (c : Dev nD) (t : Fin cfg0.N) : psib0 V c t = (V c main_v2 : Cert.Spec.Arr 1 32) :=
  funext fun y => congrArg (V c main_v2) (funext fun a => Fin.ext (win0_5.rect_emb_val_of_index_zero t a (v0_idx0_5 t a) y))
theorem v0_phiW0_eq (c : Dev nD) (t : Fin cfg0.N) : phiW0 V c t = (V c main_arg6 : Cert.Spec.Arr 16 32) :=
  funext fun y => congrArg (V c main_arg6) (funext fun a => Fin.ext (win0_6.rect_emb_val_of_index_zero t a (v0_idx0_6 t a) y))
theorem v0_phib0_eq (c : Dev nD) (t : Fin cfg0.N) : phib0 V c t = (V c main_v3 : Cert.Spec.Arr 1 32) :=
  funext fun y => congrArg (V c main_v3) (funext fun a => Fin.ext (win0_7.rect_emb_val_of_index_zero t a (v0_idx0_7 t a) y))
theorem v0_g1W0_eq (c : Dev nD) (t : Fin cfg0.N) : g1W0 V c t = (V c main_arg8 : Cert.Spec.Arr 64 64) :=
  funext fun y => congrArg (V c main_arg8) (funext fun a => Fin.ext (win0_8.rect_emb_val_of_index_zero t a (v0_idx0_8 t a) y))
theorem v0_g1b0_eq (c : Dev nD) (t : Fin cfg0.N) : g1b0 V c t = (V c main_v4 : Cert.Spec.Arr 1 64) :=
  funext fun y => congrArg (V c main_v4) (funext fun a => Fin.ext (win0_9.rect_emb_val_of_index_zero t a (v0_idx0_9 t a) y))
theorem v0_g2W0_eq (c : Dev nD) (t : Fin cfg0.N) : g2W0 V c t = (V c main_arg10 : Cert.Spec.Arr 64 32) :=
  funext fun y => congrArg (V c main_arg10) (funext fun a => Fin.ext (win0_10.rect_emb_val_of_index_zero t a (v0_idx0_10 t a) y))
theorem v0_g2b0_eq (c : Dev nD) (t : Fin cfg0.N) : g2b0 V c t = (V c main_v5 : Cert.Spec.Arr 1 32) :=
  funext fun y => congrArg (V c main_v5) (funext fun a => Fin.ext (win0_11.rect_emb_val_of_index_zero t a (v0_idx0_11 t a) y))
theorem v0_c1W0_eq (c : Dev nD) (t : Fin cfg0.N) : c1W0 V c t = (V c main_arg12 : Cert.Spec.Arr 32 64) :=
  funext fun y => congrArg (V c main_arg12) (funext fun a => Fin.ext (win0_12.rect_emb_val_of_index_zero t a (v0_idx0_12 t a) y))
theorem v0_c1b0_eq (c : Dev nD) (t : Fin cfg0.N) : c1b0 V c t = (V c main_v6 : Cert.Spec.Arr 1 64) :=
  funext fun y => congrArg (V c main_v6) (funext fun a => Fin.ext (win0_13.rect_emb_val_of_index_zero t a (v0_idx0_13 t a) y))

end Cert.KernelIdeal.Hand

end
-- ==== Proof.KI.Val0Gate.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Pay
import proofs.«104285_g40587440947829_cont_sun_m_1101_7_alg».proof.Proof.KI.Val0Blk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem v0_gAt_apply (c : Dev nD) (t : Fin cfg0.N) (p : Fin 1000) (q : Fin 32) :
    gAt V c t (ix2 p q) = Cert.Spec.gate (V c main_arg0 : Cert.Spec.Arr 10000 128) (V c main_arg1 : Cert.Spec.Arr 10000 16)
          (V c main_arg4 : Cert.Spec.Arr 128 32) (V c main_v2 : Cert.Spec.Arr 1 32)
          (V c main_arg6 : Cert.Spec.Arr 16 32) (V c main_v3 : Cert.Spec.Arr 1 32)
          (V c main_arg8 : Cert.Spec.Arr 64 64) (V c main_v4 : Cert.Spec.Arr 1 64)
          (V c main_arg10 : Cert.Spec.Arr 64 32) (V c main_v5 : Cert.Spec.Arr 1 32) (v0_row0 t p) q := by
  unfold gAt x1At
  refine (v0_gate_tile (xb0 V c t) (zb0 V c t) (psiW0 V c t) (psib0 V c t) (phiW0 V c t) (phib0 V c t) (g1W0 V c t) (g1b0 V c t)
    (g2W0 V c t) (g2b0 V c t) (V c main_arg0) (V c main_arg1) p (v0_row0 t p)
    (fun m => v0_xb0_apply V c t p m _ (v0_row0_val t p)) (fun m => v0_zb0_apply V c t p m _ (v0_row0_val t p)) q).trans ?_
  rw [v0_psiW0_eq V c t, v0_psib0_eq V c t, v0_phiW0_eq V c t, v0_phib0_eq V c t, v0_g1W0_eq V c t, v0_g1b0_eq V c t, v0_g2W0_eq V c t,
    v0_g2b0_eq V c t]

theorem v0_read14_apply (G : S10000x32.Idx → EReal) (t : Fin cfg0.N) (p : Fin 1000) (q : Fin 32) :
    ((cfg0.win 14).blk t).view.read (Elt Ideal) G (ix2 p q) = G (ix2 (v0_row0 t p) q) := by
  rw [View.read_apply]
  show G _ = G _
  congr 1
  funext a
  apply Fin.ext
  match a with
  | ⟨0, _⟩ => show win0_14.index t 0 * 1000 + 1 * p.val = t.val * 1000 + p.val; rw [(v0_idx0_14 t).1]; omega
  | ⟨1, _⟩ => show win0_14.index t 1 * 32 + 1 * q.val = q.val; rw [(v0_idx0_14 t).2.1]; omega

theorem val0_gate (c : Dev nD) :
    ((dat0 (F := Ideal) V c).arrAt 14 cfg0.N : S10000x32.Idx → EReal)
      = fun j => Cert.Spec.gate (V c main_arg0 : Cert.Spec.Arr 10000 128) (V c main_arg1 : Cert.Spec.Arr 10000 16)
          (V c main_arg4 : Cert.Spec.Arr 128 32) (V c main_v2 : Cert.Spec.Arr 1 32)
          (V c main_arg6 : Cert.Spec.Arr 16 32) (V c main_v3 : Cert.Spec.Arr 1 32)
          (V c main_arg8 : Cert.Spec.Arr 64 64) (V c main_v4 : Cert.Spec.Arr 1 64)
          (V c main_arg10 : Cert.Spec.Arr 64 32) (V c main_v5 : Cert.Spec.Arr 1 32) (j 0) (j 1) := by
  refine (dat0 (F := Ideal) V c).arrAt_eq_of_cover 14 _ (fun t _ => ?_) (fun (i : S10000x32.Idx) => ?_)
  · refine funext fun (y : S1000x32.Idx) => ?_
    obtain ⟨p, q, rfl⟩ : ∃ (p : Fin 1000) (q : Fin 32), y = ix2 p q := ⟨y 0, y 1, eq_ix2 y⟩
    rw [v0_read14_apply]
    exact v0_gAt_apply V c t p q
  · have hN := v0_N0_eq
    have h0 : (i 0).val < 10000 := (i 0).isLt
    have h1 : (i 1).val < 32 := (i 1).isLt
    obtain ⟨t, ht⟩ : ∃ t : Fin cfg0.N, t.val = (i 0).val / 1000 := ⟨⟨(i 0).val / 1000, by omega⟩, rfl⟩
    refine ⟨t, flush0_14 t, ?_⟩
    show i ∈ ((View.whole main_v7_0).slice (win0_14.rect t)).set
    rw [View.set_slice_whole, Rect.mem_set_unit]
    intro a
    match a with
    | ⟨0, _⟩ =>
      show win0_14.index t 0 * 1000 ≤ (i 0).val ∧ (i 0).val < win0_14.index t 0 * 1000 + win0_14.xsize (grid0.coords t) 0
      rw [(v0_idx0_14 t).1, (v0_idx0_14 t).2.2.1, ht]; omega
    | ⟨1, _⟩ =>
      show win0_14.index t 1 * 32 ≤ (i 1).val ∧ (i 1).val < win0_14.index t 1 * 32 + win0_14.xsize (grid0.coords t) 1
      rw [(v0_idx0_14 t).2.1, (v0_idx0_14 t).2.2.2]; omega

end Cert.KernelIdeal.Hand

end
-- ==== Proof.KI.Val0Isd.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Pay
import proofs.«104285_g40587440947829_cont_sun_m_1101_7_alg».proof.Proof.KI.Val0Blk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem v0_sAt_apply (c : Dev nD) (t : Fin cfg0.N) (p : Fin 1000) (u : Fin 1) :
    sAt V c t (ix2 p u) = Cert.Spec.isd (V c main_arg2 : Cert.Spec.Arr 10000 2048) (V c main_v1 : Cert.Spec.Arr 2048 1) (v0_row0 t p) := by
  unfold sAt
  refine (v0_isd_tile (Hb0 V c t) (wb0 V c t) (V c main_arg2) p (v0_row0 t p)
    (fun m => v0_Hb0_apply V c t p m _ (v0_row0_val t p)) u).trans ?_
  rw [v0_wb0_eq V c t]

theorem v0_read15_apply (G : S10000x1.Idx → EReal) (t : Fin cfg0.N) (p : Fin 1000) (u : Fin 1) :
    ((cfg0.win 15).blk t).view.read (Elt Ideal) G (ix2 p u) = G (ix2 (v0_row0 t p) u) := by
  rw [View.read_apply]
  show G _ = G _
  congr 1
  funext a
  apply Fin.ext
  match a with
  | ⟨0, _⟩ => show win0_15.index t 0 * 1000 + 1 * p.val = t.val * 1000 + p.val; rw [(v0_idx0_15 t).1]; omega
  | ⟨1, _⟩ => show win0_15.index t 1 * 1 + 1 * u.val = u.val; rw [(v0_idx0_15 t).2.1]; omega

theorem val0_isd (c : Dev nD) :
    ((dat0 (F := Ideal) V c).arrAt 15 cfg0.N : S10000x1.Idx → EReal)
      = fun j => Cert.Spec.isd (V c main_arg2 : Cert.Spec.Arr 10000 2048) (V c main_v1 : Cert.Spec.Arr 2048 1) (j 0) := by
  refine (dat0 (F := Ideal) V c).arrAt_eq_of_cover 15 _ (fun t _ => ?_) (fun (i : S10000x1.Idx) => ?_)
  · refine funext fun (y : S1000x1.Idx) => ?_
    obtain ⟨p, u, rfl⟩ : ∃ (p : Fin 1000) (u : Fin 1), y = ix2 p u := ⟨y 0, y 1, eq_ix2 y⟩
    rw [v0_read15_apply]
    exact v0_sAt_apply V c t p u
  · have hN := v0_N0_eq
    have h0 : (i 0).val < 10000 := (i 0).isLt
    have h1 : (i 1).val < 1 := (i 1).isLt
    obtain ⟨t, ht⟩ : ∃ t : Fin cfg0.N, t.val = (i 0).val / 1000 := ⟨⟨(i 0).val / 1000, by omega⟩, rfl⟩
    refine ⟨t, flush0_15 t, ?_⟩
    show i ∈ ((View.whole main_v7_1).slice (win0_15.rect t)).set
    rw [View.set_slice_whole, Rect.mem_set_unit]
    intro a
    match a with
    | ⟨0, _⟩ =>
      show win0_15.index t 0 * 1000 ≤ (i 0).val ∧ (i 0).val < win0_15.index t 0 * 1000 + win0_15.xsize (grid0.coords t) 0
      rw [(v0_idx0_15 t).1, (v0_idx0_15 t).2.2.1, ht]; omega
    | ⟨1, _⟩ =>
      show win0_15.index t 1 * 1 ≤ (i 1).val ∧ (i 1).val < win0_15.index t 1 * 1 + win0_15.xsize (grid0.coords t) 1
      rw [(v0_idx0_15 t).2.1, (v0_idx0_15 t).2.2.2]; omega

end Cert.KernelIdeal.Hand

end
-- ==== Proof.KI.Val0Acc.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem v0_rows_acc {M : Type*} [AddCommMonoid M] {N R : ℕ} (A : (n : ℕ) → n < N → M) (f : ℕ → M)
    (h0 : ∀ h : 0 < N, A 0 h = ∑ p : Fin R, f (0 * R + p.val))
    (hs : ∀ (n : ℕ) (h : n + 1 < N), A (n + 1) h = A n (Nat.lt_of_succ_lt h) + ∑ p : Fin R, f ((n + 1) * R + p.val)) :
    ∀ (n : ℕ) (h : n < N), A n h = ∑ r ∈ Finset.range ((n + 1) * R), f r
  | 0, h => by
    rw [h0 h, Nat.zero_add, Nat.one_mul, Finset.sum_range]
    exact Finset.sum_congr rfl fun p _ => by rw [Nat.zero_mul, Nat.zero_add]
  | n + 1, h => by
    have e : (n + 1 + 1) * R = (n + 1) * R + R := Nat.succ_mul (n + 1) R
    rw [hs n h, v0_rows_acc A f h0 hs n (Nat.lt_of_succ_lt h), e, Finset.sum_range_add, Finset.sum_range (fun x => f ((n + 1) * R + x))]

theorem v0_sum_rows_eq {M : Type*} [AddCommMonoid M] {Rtot : ℕ} (g : Fin Rtot → M) :
    ∑ r ∈ Finset.range Rtot, (if h : r < Rtot then g ⟨r, h⟩ else 0) = ∑ i : Fin Rtot, g i := by
  rw [Finset.sum_range]
  exact Finset.sum_congr rfl fun i _ => by rw [dif_pos i.isLt]

end Cert.KernelIdeal.Hand

end
-- ==== Proof.KI.Val0De.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Pay
import proofs.«104285_g40587440947829_cont_sun_m_1101_7_alg».proof.Proof.KI.Val0Blk
import proofs.«104285_g40587440947829_cont_sun_m_1101_7_alg».proof.Proof.KI.Val0Acc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

def v0_hcol (c : Dev nD) (q : Fin 2048) (r : ℕ) : EReal :=
  if h : r < 10000 then (V c main_arg2 : Cert.Spec.Arr 10000 2048) (ix2 ⟨r, h⟩ q) else 0

theorem v0_deAt_apply (c : Dev nD) (u : Fin 1) (q : Fin 2048) :
    ∀ (n : ℕ) (h : n < cfg0.N), deAt V c n h (ix2 u q) = ∑ r ∈ Finset.range ((n + 1) * 1000), v0_hcol V c q r := by
  have tile : ∀ (n : ℕ) (h : n < cfg0.N) (p : Fin 1000), Hb0 V c ⟨n, h⟩ (ix2 p q) = v0_hcol V c q (n * 1000 + p.val) :=
    fun n h p => by
      have hb : n * 1000 + p.val < 10000 := by have := v0_N0_eq; have := p.isLt; omega
      rw [v0_Hb0_apply V c ⟨n, h⟩ p q ⟨n * 1000 + p.val, hb⟩ rfl]
      unfold v0_hcol
      rw [dif_pos hb]
  refine v0_rows_acc (R := 1000) (fun n h => deAt V c n h (ix2 u q)) (v0_hcol V c q) (fun h => ?_) (fun n h => ?_)
  · show k0_pay6 (Hb0 V c ⟨0, h⟩) (k0_pay2 (F := Ideal)) (ix2 u q) = _
    rw [v0_pay6_apply, v0_pay2_apply, zero_add]
    exact Finset.sum_congr rfl fun p _ => tile 0 h p
  · show k0_pay6 (Hb0 V c ⟨n + 1, h⟩) (deAt V c n (Nat.lt_of_succ_lt h)) (ix2 u q) = _
    rw [v0_pay6_apply]
    exact congrArg (deAt V c n (Nat.lt_of_succ_lt h) (ix2 u q) + ·) (Finset.sum_congr rfl fun p _ => tile (n + 1) h p)

theorem v0_read16_apply (G : S1x2048.Idx → EReal) (t : Fin cfg0.N) (u : Fin 1) (q : Fin 2048) :
    ((cfg0.win 16).blk t).view.read (Elt Ideal) G (ix2 u q) = G (ix2 u q) := by
  rw [View.read_apply]
  show G _ = G _
  congr 1
  funext a
  apply Fin.ext
  match a with
  | ⟨0, _⟩ => show win0_16.index t 0 * 1 + 1 * u.val = u.val; rw [(v0_idx0_16 t).1]; omega
  | ⟨1, _⟩ => show win0_16.index t 1 * 2048 + 1 * q.val = q.val; rw [(v0_idx0_16 t).2.1]; omega

theorem val0_de (c : Dev nD) :
    ((dat0 (F := Ideal) V c).arrAt 16 cfg0.N : S1x2048.Idx → EReal)
      = fun j => Cert.Spec.de (V c main_arg2 : Cert.Spec.Arr 10000 2048) (j 1) := by
  have hN := v0_N0_eq
  refine (dat0 (F := Ideal) V c).arrAt_eq_of_cover 16 _ (fun t hf => ?_) (fun (i : S1x2048.Idx) => ?_)
  · have h9 : t.val = 9 := by have := (flush0_16 t).mp hf; have := t.isLt; omega
    refine funext fun (y : S1x2048.Idx) => ?_
    obtain ⟨u, q, rfl⟩ : ∃ (u : Fin 1) (q : Fin 2048), y = ix2 u q := ⟨y 0, y 1, eq_ix2 y⟩
    rw [v0_read16_apply]
    show deAt V c t.val t.isLt (ix2 u q) = Cert.Spec.de (V c main_arg2 : Cert.Spec.Arr 10000 2048) q
    rw [v0_deAt_apply V c u q t.val t.isLt, h9]
    show ∑ r ∈ Finset.range 10000, v0_hcol V c q r = _
    unfold Cert.Spec.de
    exact v0_sum_rows_eq (M := EReal) (fun i : Fin 10000 => (V c main_arg2 : Cert.Spec.Arr 10000 2048) (ix2 i q))
  · have h0 : (i 0).val < 1 := (i 0).isLt
    have h1 : (i 1).val < 2048 := (i 1).isLt
    obtain ⟨t, ht⟩ : ∃ t : Fin cfg0.N, t.val = 9 := ⟨⟨9, by omega⟩, rfl⟩
    refine ⟨t, (flush0_16 t).mpr (by omega), ?_⟩
    show i ∈ ((View.whole main_v7_2).slice (win0_16.rect t)).set
    rw [View.set_slice_whole, Rect.mem_set_unit]
    intro a
    match a with
    | ⟨0, _⟩ =>
      show win0_16.index t 0 * 1 ≤ (i 0).val ∧ (i 0).val < win0_16.index t 0 * 1 + win0_16.xsize (grid0.coords t) 0
      rw [(v0_idx0_16 t).1, (v0_idx0_16 t).2.2.1]; omega
    | ⟨1, _⟩ =>
      show win0_16.index t 1 * 2048 ≤ (i 1).val ∧ (i 1).val < win0_16.index t 1 * 2048 + win0_16.xsize (grid0.coords t) 1
      rw [(v0_idx0_16 t).2.1, (v0_idx0_16 t).2.2.2]; omega

end Cert.KernelIdeal.Hand

end
-- ==== Proof.KI.Val0M1t.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Pay
import proofs.«104285_g40587440947829_cont_sun_m_1101_7_alg».proof.Proof.KI.Val0Blk
import proofs.«104285_g40587440947829_cont_sun_m_1101_7_alg».proof.Proof.KI.Val0Acc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev v0_xnSpec (c : Dev nD) : Fin 10000 → Fin 64 → EReal :=
  Cert.Spec.xn1 (V c main_arg2 : Cert.Spec.Arr 10000 2048)
          (V c main_arg0 : Cert.Spec.Arr 10000 128) (V c main_arg1 : Cert.Spec.Arr 10000 16) (V c main_v1 : Cert.Spec.Arr 2048 1)
          (V c main_arg4 : Cert.Spec.Arr 128 32) (V c main_v2 : Cert.Spec.Arr 1 32)
          (V c main_arg6 : Cert.Spec.Arr 16 32) (V c main_v3 : Cert.Spec.Arr 1 32)
          (V c main_arg8 : Cert.Spec.Arr 64 64) (V c main_v4 : Cert.Spec.Arr 1 64)
          (V c main_arg10 : Cert.Spec.Arr 64 32) (V c main_v5 : Cert.Spec.Arr 1 32)
          (V c main_arg12 : Cert.Spec.Arr 32 64) (V c main_v6 : Cert.Spec.Arr 1 64)

theorem v0_xn1At_apply (c : Dev nD) (t : Fin cfg0.N) (p : Fin 1000) (d : Fin 64) :
    xn1At V c t (ix2 p d) = v0_xnSpec V c (v0_row0 t p) d := by
  unfold xn1At sAt x1At
  refine (v0_xn1_tile (Hb0 V c t) (wb0 V c t) (xb0 V c t) (zb0 V c t) (psiW0 V c t) (psib0 V c t) (phiW0 V c t) (phib0 V c t)
    (g1W0 V c t) (g1b0 V c t) (g2W0 V c t) (g2b0 V c t) (c1W0 V c t) (c1b0 V c t)
    (V c main_arg2) (V c main_arg0) (V c main_arg1) p (v0_row0 t p)
    (fun m => v0_Hb0_apply V c t p m _ (v0_row0_val t p)) (fun m => v0_xb0_apply V c t p m _ (v0_row0_val t p))
    (fun m => v0_zb0_apply V c t p m _ (v0_row0_val t p)) d).trans ?_
  rw [v0_wb0_eq V c t, v0_psiW0_eq V c t, v0_psib0_eq V c t, v0_phiW0_eq V c t, v0_phib0_eq V c t, v0_g1W0_eq V c t, v0_g1b0_eq V c t,
    v0_g2W0_eq V c t, v0_g2b0_eq V c t, v0_c1W0_eq V c t, v0_c1b0_eq V c t]

def v0_mrow (c : Dev nD) (d : Fin 64) (q : Fin 2048) (r : ℕ) : EReal :=
  if h : r < 10000 then v0_xnSpec V c ⟨r, h⟩ d * (V c main_arg2 : Cert.Spec.Arr 10000 2048) (ix2 ⟨r, h⟩ q) else 0

theorem v0_m1tAt_apply (c : Dev nD) (d : Fin 64) (q : Fin 2048) :
    ∀ (n : ℕ) (h : n < cfg0.N), m1tAt V c n h (ix2 d q) = ∑ r ∈ Finset.range ((n + 1) * 1000), v0_mrow V c d q r := by
  have tile : ∀ (n : ℕ) (h : n < cfg0.N) (p : Fin 1000),
      xn1At V c ⟨n, h⟩ (ix2 p d) * hAt V c ⟨n, h⟩ (ix2 p q) = v0_mrow V c d q (n * 1000 + p.val) := fun n h p => by
    have hb : n * 1000 + p.val < 10000 := by have := v0_N0_eq; have := p.isLt; omega
    unfold hAt
    rw [v0_xn1At_apply V c ⟨n, h⟩ p d, v0_pay4_apply, v0_Hb0_apply V c ⟨n, h⟩ p q ⟨n * 1000 + p.val, hb⟩ rfl]
    unfold v0_mrow
    rw [dif_pos hb]
    rfl
  refine v0_rows_acc (R := 1000) (fun n h => m1tAt V c n h (ix2 d q)) (v0_mrow V c d q) (fun h => ?_) (fun n h => ?_)
  · show k0_pay1 (hAt V c ⟨0, h⟩) (xn1At V c ⟨0, h⟩) (k0_pay3 (F := Ideal)) (ix2 d q) = _
    rw [v0_pay1_apply, v0_pay3_apply, zero_add]
    exact Finset.sum_congr rfl fun p _ => tile 0 h p
  · show k0_pay1 (hAt V c ⟨n + 1, h⟩) (xn1At V c ⟨n + 1, h⟩) (m1tAt V c n (Nat.lt_of_succ_lt h)) (ix2 d q) = _
    rw [v0_pay1_apply]
    exact congrArg (m1tAt V c n (Nat.lt_of_succ_lt h) (ix2 d q) + ·) (Finset.sum_congr rfl fun p _ => tile (n + 1) h p)

theorem v0_read17_apply (G : S64x2048.Idx → EReal) (t : Fin cfg0.N) (d : Fin 64) (q : Fin 2048) :
    ((cfg0.win 17).blk t).view.read (Elt Ideal) G (ix2 d q) = G (ix2 d q) := by
  rw [View.read_apply]
  show G _ = G _
  congr 1
  funext a
  apply Fin.ext
  match a with
  | ⟨0, _⟩ => show win0_17.index t 0 * 64 + 1 * d.val = d.val; rw [(v0_idx0_17 t).1]; omega
  | ⟨1, _⟩ => show win0_17.index t 1 * 2048 + 1 * q.val = q.val; rw [(v0_idx0_17 t).2.1]; omega

theorem val0_m1t (c : Dev nD) :
    ((dat0 (F := Ideal) V c).arrAt 17 cfg0.N : S64x2048.Idx → EReal)
      = fun j => Cert.Spec.m1t (V c main_arg2 : Cert.Spec.Arr 10000 2048)
          (V c main_arg0 : Cert.Spec.Arr 10000 128) (V c main_arg1 : Cert.Spec.Arr 10000 16) (V c main_v1 : Cert.Spec.Arr 2048 1)
          (V c main_arg4 : Cert.Spec.Arr 128 32) (V c main_v2 : Cert.Spec.Arr 1 32)
          (V c main_arg6 : Cert.Spec.Arr 16 32) (V c main_v3 : Cert.Spec.Arr 1 32)
          (V c main_arg8 : Cert.Spec.Arr 64 64) (V c main_v4 : Cert.Spec.Arr 1 64)
          (V c main_arg10 : Cert.Spec.Arr 64 32) (V c main_v5 : Cert.Spec.Arr 1 32)
          (V c main_arg12 : Cert.Spec.Arr 32 64) (V c main_v6 : Cert.Spec.Arr 1 64) (j 0) (j 1) := by
  have hN := v0_N0_eq
  refine (dat0 (F := Ideal) V c).arrAt_eq_of_cover 17 _ (fun t hf => ?_) (fun (i : S64x2048.Idx) => ?_)
  · have h9 : t.val = 9 := by have := (flush0_17 t).mp hf; have := t.isLt; omega
    refine funext fun (y : S64x2048.Idx) => ?_
    obtain ⟨d, q, rfl⟩ : ∃ (d : Fin 64) (q : Fin 2048), y = ix2 d q := ⟨y 0, y 1, eq_ix2 y⟩
    rw [v0_read17_apply]
    show m1tAt V c t.val t.isLt (ix2 d q) = Cert.Spec.m1t (V c main_arg2 : Cert.Spec.Arr 10000 2048)
          (V c main_arg0 : Cert.Spec.Arr 10000 128) (V c main_arg1 : Cert.Spec.Arr 10000 16) (V c main_v1 : Cert.Spec.Arr 2048 1)
          (V c main_arg4 : Cert.Spec.Arr 128 32) (V c main_v2 : Cert.Spec.Arr 1 32)
          (V c main_arg6 : Cert.Spec.Arr 16 32) (V c main_v3 : Cert.Spec.Arr 1 32)
          (V c main_arg8 : Cert.Spec.Arr 64 64) (V c main_v4 : Cert.Spec.Arr 1 64)
          (V c main_arg10 : Cert.Spec.Arr 64 32) (V c main_v5 : Cert.Spec.Arr 1 32)
          (V c main_arg12 : Cert.Spec.Arr 32 64) (V c main_v6 : Cert.Spec.Arr 1 64) d q
    rw [v0_m1tAt_apply V c d q t.val t.isLt, h9]
    show ∑ r ∈ Finset.range 10000, v0_mrow V c d q r = _
    unfold Cert.Spec.m1t
    exact v0_sum_rows_eq (M := EReal) (fun i : Fin 10000 => v0_xnSpec V c i d * (V c main_arg2 : Cert.Spec.Arr 10000 2048) (ix2 i q))
  · have h0 : (i 0).val < 64 := (i 0).isLt
    have h1 : (i 1).val < 2048 := (i 1).isLt
    obtain ⟨t, ht⟩ : ∃ t : Fin cfg0.N, t.val = 9 := ⟨⟨9, by omega⟩, rfl⟩
    refine ⟨t, (flush0_17 t).mpr (by omega), ?_⟩
    show i ∈ ((View.whole main_v7_3).slice (win0_17.rect t)).set
    rw [View.set_slice_whole, Rect.mem_set_unit]
    intro a
    match a with
    | ⟨0, _⟩ =>
      show win0_17.index t 0 * 64 ≤ (i 0).val ∧ (i 0).val < win0_17.index t 0 * 64 + win0_17.xsize (grid0.coords t) 0
      rw [(v0_idx0_17 t).1, (v0_idx0_17 t).2.2.1]; omega
    | ⟨1, _⟩ =>
      show win0_17.index t 1 * 2048 ≤ (i 1).val ∧ (i 1).val < win0_17.index t 1 * 2048 + win0_17.xsize (grid0.coords t) 1
      rw [(v0_idx0_17 t).2.1, (v0_idx0_17 t).2.2.2]; omega

end Cert.KernelIdeal.Hand

end
-- ==== Proof.KI.Val0H.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104285_g40587440947829_cont_sun_m_1101_7_alg».proof.Proof.KI.Val0Pay
import proofs.«104285_g40587440947829_cont_sun_m_1101_7_alg».proof.Proof.KI.Val0Blk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem v0_read18_apply (G : S10000x2048.Idx → EReal) (t : Fin cfg0.N) (p : Fin 1000) (m : Fin 2048) :
    ((cfg0.win 18).blk t).view.read (Elt Ideal) G (ix2 p m) = G (ix2 (v0_row0 t p) m) := by
  rw [View.read_apply]
  show G _ = G _
  congr 1
  funext a
  apply Fin.ext
  match a with
  | ⟨0, _⟩ => show win0_18.index t 0 * 1000 + 1 * p.val = t.val * 1000 + p.val; rw [(v0_idx0_18 t).1]; omega
  | ⟨1, _⟩ => show win0_18.index t 1 * 2048 + 1 * m.val = m.val; rw [(v0_idx0_18 t).2.1]; omega

theorem val0_h (c : Dev nD) :
    ((dat0 (F := Ideal) V c).arrAt 18 cfg0.N : S10000x2048.Idx → EReal)
      = fun j => (V c main_arg2 : Cert.Spec.Arr 10000 2048) j := by
  refine (dat0 (F := Ideal) V c).arrAt_eq_of_cover 18 _ (fun t _ => ?_) (fun (i : S10000x2048.Idx) => ?_)
  · refine funext fun (y : S1000x2048.Idx) => ?_
    obtain ⟨p, m, rfl⟩ : ∃ (p : Fin 1000) (m : Fin 2048), y = ix2 p m := ⟨y 0, y 1, eq_ix2 y⟩
    rw [v0_read18_apply]
    exact (v0_pay4_apply (Hb0 V c t) (ix2 p m)).trans (v0_Hb0_apply V c t p m _ (v0_row0_val t p))
  · have hN := v0_N0_eq
    have h0 : (i 0).val < 10000 := (i 0).isLt
    have h1 : (i 1).val < 2048 := (i 1).isLt
    obtain ⟨t, ht⟩ : ∃ t : Fin cfg0.N, t.val = (i 0).val / 1000 := ⟨⟨(i 0).val / 1000, by omega⟩, rfl⟩
    refine ⟨t, flush0_18 t, ?_⟩
    show i ∈ ((View.whole main_v7_4).slice (win0_18.rect t)).set
    rw [View.set_slice_whole, Rect.mem_set_unit]
    intro a
    match a with
    | ⟨0, _⟩ =>
      show win0_18.index t 0 * 1000 ≤ (i 0).val ∧ (i 0).val < win0_18.index t 0 * 1000 + win0_18.xsize (grid0.coords t) 0
      rw [(v0_idx0_18 t).1, (v0_idx0_18 t).2.2.1, ht]; omega
    | ⟨1, _⟩ =>
      show win0_18.index t 1 * 2048 ≤ (i 1).val ∧ (i 1).val < win0_18.index t 1 * 2048 + win0_18.xsize (grid0.coords t) 1
      rw [(v0_idx0_18 t).2.1, (v0_idx0_18 t).2.2.2]; omega

end Cert.KernelIdeal.Hand

end
-- ==== Proof.KI.Val0.lean ====
import proofs.«104285_g40587440947829_cont_sun_m_1101_7_alg».proof.Proof.KI.Val0Gate
import proofs.«104285_g40587440947829_cont_sun_m_1101_7_alg».proof.Proof.KI.Val0Isd
import proofs.«104285_g40587440947829_cont_sun_m_1101_7_alg».proof.Proof.KI.Val0De
import proofs.«104285_g40587440947829_cont_sun_m_1101_7_alg».proof.Proof.KI.Val0M1t
import proofs.«104285_g40587440947829_cont_sun_m_1101_7_alg».proof.Proof.KI.Val0H
-- ==== Proof.KI.Val12Hid.lean ====
import proofs.«104285_g40587440947829_cont_sun_m_1101_7_alg».proof.Proof.Gen.KernelIdeal.Skeleton
import proofs.«104285_g40587440947829_cont_sun_m_1101_7_alg».proof.Proof.Spec
import proofs.«104285_g40587440947829_cont_sun_m_1101_7_alg».proof.Proof.KI.Val0Dot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem v12_mm_HN (A : FVec Ideal S2000x2048 .bf16) (B : FVec Ideal S2048x64 .bf16) (r : Fin 2000) (k : Fin 64) :
    matmul dot_S2000x2048_S2048x64_S2000x64_1_0_0_1_n_n none A B (constant (F := Ideal) S2000x64 .f32 0x00000000#32) (ix2 r k)
      = ∑ i : Fin 2048, A (ix2 r i) * B (ix2 i k) :=
  v0_plain_mm_zero dot_S2000x2048_S2048x64_S2000x64_1_0_0_1_n_n rfl rfl rfl rfl rfl rfl A B r k
theorem v12_mm_hC (A : FVec Ideal S2000x64 .f32) (B : FVec Ideal S64x64 .f32) (r : Fin 2000) (d : Fin 64) :
    matmul dot_S2000x64_S64x64_S2000x64_1_0_0_1_n_n none A B (constant (F := Ideal) S2000x64 .f32 0x00000000#32) (ix2 r d)
      = ∑ i : Fin 64, A (ix2 r i) * B (ix2 i d) :=
  v0_plain_mm_zero dot_S2000x64_S64x64_S2000x64_1_0_0_1_n_n rfl rfl rfl rfl rfl rfl A B r d
theorem v12_mm_hW (A : FVec Ideal S2000x64 .f32) (B : FVec Ideal S64x2 .f32) (r : Fin 2000) (j : Fin 2) :
    matmul dot_S2000x64_S64x2_S2000x2_1_0_0_1_n_n none A B (constant (F := Ideal) S2000x2 .f32 0x00000000#32) (ix2 r j)
      = ∑ i : Fin 64, A (ix2 r i) * B (ix2 i j) :=
  v0_plain_mm_zero dot_S2000x64_S64x2_S2000x2_1_0_0_1_n_n rfl rfl rfl rfl rfl rfl A B r j
theorem v12_mm_acc (A : FVec Ideal S2000x64 .bf16) (B : FVec Ideal S2000x2048 .bf16) (d : Fin 64) (q : Fin 2048) :
    matmul dot_S2000x64_S2000x2048_S64x2048_0_0_1_1_n_n none A B (constant (F := Ideal) S64x2048 .f32 0x00000000#32) (ix2 d q)
      = ∑ i : Fin 2000, A (ix2 i d) * B (ix2 i q) :=
  v0_gram_mm_zero dot_S2000x64_S2000x2048_S64x2048_0_0_1_1_n_n rfl rfl rfl rfl rfl rfl A B d q

theorem v12_k1_pay2_apply (wr de : FVec Ideal S1x2048 .f32) (mt : FVec Ideal S64x2048 .f32) (q : Fin 2048) (d : Fin 64) :
    k1_pay2 (F := Ideal) wr de mt (ix2 q d) = Cert.Spec.mn mt wr de q d := by
  unfold k1_pay2
  dsimp only
  simp only [shapeCast_self]
  refine (transpose_apply _ _ transposes_S64x2048_p1_0_S2048x64 (ix2 q d) (ix2 d q)
    (fun b => match b with | ⟨0, _⟩ => rfl | ⟨1, _⟩ => rfl)).trans ?_
  rw [truncf_apply, mulf_apply]
  rw [broadcastTo_apply _ broadcasts_S1x2048_S64x2048 (ix2 d q) (ix2 (0 : Fin 1) q)
    (fun a => match a with | ⟨0, _⟩ => rfl | ⟨1, _⟩ => rfl)]
  rw [divf_apply, addf_apply, broadcast_apply]
  rfl

theorem v12_k2_pay1_eq (wr de : FVec Ideal S1x2048 .f32) (mt : FVec Ideal S64x2048 .f32) :
    k2_pay1 (F := Ideal) wr de mt = k1_pay2 (F := Ideal) wr de mt := rfl

def v12_hidTile (Hb : FVec Ideal S2000x2048 .bf16) (sb : FVec Ideal S2000x1 .f32) (sc : FVec Ideal S2048x64 .bf16) : FVec Ideal S2000x64 .f32 :=
  maximumf (mulf (matmul dot_S2000x2048_S2048x64_S2000x64_1_0_0_1_n_n none (shapeCast S2000x2048 Hb shapeCasts_S2000x2048_S2000x2048) sc (constant (F := Ideal) S2000x64 .f32 0x00000000#32))
    (broadcastTo S2000x64 (shapeCast S2000x1 sb shapeCasts_S2000x1_S2000x1) broadcasts_S2000x1_S2000x64)) (broadcast S2000x64 (Scalar.ofBits (F := Ideal) .f32 0x00000000#32))

theorem v12_hidTile_apply (Hb : FVec Ideal S2000x2048 .bf16) (sb : FVec Ideal S2000x1 .f32) (sc : FVec Ideal S2048x64 .bf16) (r : Fin 2000) (k : Fin 64) :
    v12_hidTile Hb sb sc (ix2 r k) = max ((∑ q : Fin 2048, Hb (ix2 r q) * sc (ix2 q k)) * sb (ix2 r (0 : Fin 1))) Cert.Spec.zero := by
  unfold v12_hidTile
  rw [maximumf_apply, mulf_apply, broadcast_apply, shapeCast_self, shapeCast_self, v12_mm_HN]
  rw [broadcastTo_apply _ broadcasts_S2000x1_S2000x64 (ix2 r k) (ix2 r (0 : Fin 1))
    (fun a => match a with | ⟨0, _⟩ => rfl | ⟨1, _⟩ => rfl)]
  rfl

def v12_row (t : ℕ) (ht : t < 5) (r : Fin 2000) : Fin 10000 := ⟨2000 * t + r.val, by have := r.isLt; omega⟩

theorem v12_hidTile_eq_hid (Hh : Cert.Spec.Arr 10000 2048) (s : Cert.Spec.Arr 10000 1) (mt : Cert.Spec.Arr 64 2048) (wr de : Cert.Spec.Arr 1 2048)
    (Hb : FVec Ideal S2000x2048 .bf16) (sb : FVec Ideal S2000x1 .f32) (sc : FVec Ideal S2048x64 .bf16) (t : ℕ) (ht : t < 5)
    (hH : ∀ (r : Fin 2000) (q : Fin 2048), Hb (ix2 r q) = Hh (ix2 (v12_row t ht r) q))
    (hs : ∀ r : Fin 2000, sb (ix2 r (0 : Fin 1)) = s (ix2 (v12_row t ht r) (0 : Fin 1)))
    (hsc : ∀ (q : Fin 2048) (k : Fin 64), sc (ix2 q k) = Cert.Spec.mn mt wr de q k)
    (r : Fin 2000) (k : Fin 64) :
    v12_hidTile Hb sb sc (ix2 r k) = Cert.Spec.hid Hh s mt wr de (v12_row t ht r) k := by
  have e : (∑ q : Fin 2048, Hb (ix2 r q) * sc (ix2 q k)) = ∑ q : Fin 2048, Hh (ix2 (v12_row t ht r) q) * Cert.Spec.mn mt wr de q k :=
    Finset.sum_congr rfl fun q _ => by rw [hH r q, hsc q k]
  rw [v12_hidTile_apply, hs, e]
  rfl

theorem v12_k1_pay3_eq (v3 : FVec Ideal S2000x2048 .bf16) (v5 : FVec Ideal S2000x1 .f32) (v7 : FVec Ideal S2048x64 .bf16) (v13 : FVec Ideal S64x64 .f32) (v15 : FVec Ideal S1x64 .f32) (v22 : FVec Ideal S64x2048 .f32) :
    k1_pay3 (F := Ideal) v3 v5 v7 v13 v15 v22
      = addf (shapeCast S64x2048 v22 shapeCasts_S64x2048_S64x2048)
          (matmul dot_S2000x64_S2000x2048_S64x2048_0_0_1_1_n_n none
            (truncf .bf16 (mulf (addf (matmul dot_S2000x64_S64x64_S2000x64_1_0_0_1_n_n none (v12_hidTile v3 v5 v7) v13 (constant (F := Ideal) S2000x64 .f32 0x00000000#32))
                (broadcastTo S2000x64 (shapeCast S1x64 v15 shapeCasts_S1x64_S1x64) broadcasts_S1x64_S2000x64))
              (broadcastTo S2000x64 (shapeCast S2000x1 v5 shapeCasts_S2000x1_S2000x1) broadcasts_S2000x1_S2000x64)) bitsLt_bf16_f32)
            (shapeCast S2000x2048 v3 shapeCasts_S2000x2048_S2000x2048) (constant (F := Ideal) S64x2048 .f32 0x00000000#32)) := rfl

theorem v12_k1_pay3_apply (v3 : FVec Ideal S2000x2048 .bf16) (v5 : FVec Ideal S2000x1 .f32) (v7 : FVec Ideal S2048x64 .bf16) (v13 : FVec Ideal S64x64 .f32) (v15 : FVec Ideal S1x64 .f32) (v22 : FVec Ideal S64x2048 .f32) (d : Fin 64) (q : Fin 2048) :
    k1_pay3 (F := Ideal) v3 v5 v7 v13 v15 v22 (ix2 d q)
      = v22 (ix2 d q) + ∑ r : Fin 2000, (((∑ k : Fin 64, v12_hidTile v3 v5 v7 (ix2 r k) * v13 (ix2 k d)) + v15 (ix2 (0 : Fin 1) d)) * v5 (ix2 r (0 : Fin 1))) * v3 (ix2 r q) := by
  rw [v12_k1_pay3_eq]
  simp only [shapeCast_self]
  rw [addf_apply, v12_mm_acc]
  refine congrArg (v22 (ix2 d q) + ·) (Finset.sum_congr rfl fun r _ => ?_)
  rw [truncf_apply, mulf_apply, addf_apply, v12_mm_hC]
  rw [broadcastTo_apply _ broadcasts_S1x64_S2000x64 (ix2 r d) (ix2 (0 : Fin 1) d) (fun a => match a with | ⟨0, _⟩ => rfl | ⟨1, _⟩ => rfl),
      broadcastTo_apply _ broadcasts_S2000x1_S2000x64 (ix2 r d) (ix2 r (0 : Fin 1)) (fun a => match a with | ⟨0, _⟩ => rfl | ⟨1, _⟩ => rfl)]

theorem v12_k2_pay2_eq (v3 : FVec Ideal S2000x2048 .bf16) (v5 : FVec Ideal S2000x1 .f32) (v7 : FVec Ideal S2048x64 .bf16) (v13 : FVec Ideal S64x2 .f32) (v15 : FVec Ideal S1x2 .f32) :
    k2_pay2 (F := Ideal) v3 v5 v7 v13 v15 = addf (matmul dot_S2000x64_S64x2_S2000x2_1_0_0_1_n_n none (v12_hidTile v3 v5 v7) v13 (constant (F := Ideal) S2000x2 .f32 0x00000000#32))
      (broadcastTo S2000x2 (shapeCast S1x2 v15 shapeCasts_S1x2_S1x2) broadcasts_S1x2_S2000x2) := rfl

theorem v12_k2_pay2_apply (v3 : FVec Ideal S2000x2048 .bf16) (v5 : FVec Ideal S2000x1 .f32) (v7 : FVec Ideal S2048x64 .bf16) (v13 : FVec Ideal S64x2 .f32) (v15 : FVec Ideal S1x2 .f32) (r : Fin 2000) (j : Fin 2) :
    k2_pay2 (F := Ideal) v3 v5 v7 v13 v15 (ix2 r j) = (∑ k : Fin 64, v12_hidTile v3 v5 v7 (ix2 r k) * v13 (ix2 k j)) + v15 (ix2 (0 : Fin 1) j) := by
  rw [v12_k2_pay2_eq]
  simp only [shapeCast_self]
  rw [addf_apply, v12_mm_hW]
  rw [broadcastTo_apply _ broadcasts_S1x2_S2000x2 (ix2 r j) (ix2 (0 : Fin 1) j) (fun a => match a with | ⟨0, _⟩ => rfl | ⟨1, _⟩ => rfl)]

end Cert.KernelIdeal.Hand

end
-- ==== Proof.KI.Val1Blocks.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

theorem v12_lt5_1 (t : Fin cfg1.N) : t.val < 5 := t.isLt.trans_eq N_1

theorem v12_idx1 : ∀ t : Fin cfg1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = 0 ∧ win1_6.index t 1 = 0) ∧ (win1_7.index t 0 = 0 ∧ win1_7.index t 1 = 0) :=
  (by decide +kernel : ∀ t : Fin grid1.N, _)

theorem v12_Hb1_apply (t : Fin cfg1.N) (x : S2000x2048.Idx) (k : S10000x2048.Idx)
    (hk0 : (k 0).val = 2000 * t.val + (x 0).val) (hk1 : (k 1).val = (x 1).val) :
    (Hb1 V c t) x = (V c main_v7_4 : Cert.Spec.Arr 10000 2048) k := by
  obtain ⟨⟨e0, e1⟩, -⟩ := v12_idx1 t
  unfold Hb1 iblk1
  rw [View.read_apply]
  show V c main_v7_4 _ = V c main_v7_4 _
  congr 1
  funext a
  apply Fin.ext
  match a with
  | ⟨0, _⟩ => show win1_0.index t 0 * 2000 + 1 * (x 0).val = (k 0).val; rw [e0, hk0]; omega
  | ⟨1, _⟩ => show win1_0.index t 1 * 2048 + 1 * (x 1).val = (k 1).val; rw [e1, hk1]; omega

theorem v12_sb1_apply (t : Fin cfg1.N) (x : S2000x1.Idx) (k : S10000x1.Idx)
    (hk0 : (k 0).val = 2000 * t.val + (x 0).val) (hk1 : (k 1).val = (x 1).val) :
    (sb1 V c t) x = (V c main_v7_1 : Cert.Spec.Arr 10000 1) k := by
  obtain ⟨-, ⟨e0, e1⟩, -⟩ := v12_idx1 t
  unfold sb1 iblk1
  rw [View.read_apply]
  show V c main_v7_1 _ = V c main_v7_1 _
  congr 1
  funext a
  apply Fin.ext
  match a with
  | ⟨0, _⟩ => show win1_1.index t 0 * 2000 + 1 * (x 0).val = (k 0).val; rw [e0, hk0]; omega
  | ⟨1, _⟩ => show win1_1.index t 1 * 1 + 1 * (x 1).val = (k 1).val; rw [e1, hk1]; omega

theorem v12_m1t1_eq (t : Fin cfg1.N) : (m1t1 V c t : Cert.Spec.Arr 64 2048) = V c main_v7_3 := by
  obtain ⟨-, -, ⟨e0, e1⟩, -⟩ := v12_idx1 t
  exact funext fun x => congrArg (V c main_v7_3) (funext fun a => Fin.ext (win1_2.rect_emb_val_of_index_zero t a
    (match a with | ⟨0, _⟩ => e0 | ⟨1, _⟩ => e1) x))

theorem v12_wr1_eq (t : Fin cfg1.N) : (wr1 V c t : Cert.Spec.Arr 1 2048) = V c main_v8 := by
  obtain ⟨-, -, -, ⟨e0, e1⟩, -⟩ := v12_idx1 t
  exact funext fun x => congrArg (V c main_v8) (funext fun a => Fin.ext (win1_3.rect_emb_val_of_index_zero t a
    (match a with | ⟨0, _⟩ => e0 | ⟨1, _⟩ => e1) x))

theorem v12_de1_eq (t : Fin cfg1.N) : (de1 V c t : Cert.Spec.Arr 1 2048) = V c main_v7_2 := by
  obtain ⟨-, -, -, -, ⟨e0, e1⟩, -⟩ := v12_idx1 t
  exact funext fun x => congrArg (V c main_v7_2) (funext fun a => Fin.ext (win1_4.rect_emb_val_of_index_zero t a
    (match a with | ⟨0, _⟩ => e0 | ⟨1, _⟩ => e1) x))

theorem v12_c2W1_eq (t : Fin cfg1.N) : (c2W1 V c t : Cert.Spec.Arr 64 64) = V c main_arg14 := by
  obtain ⟨-, -, -, -, -, ⟨e0, e1⟩, -⟩ := v12_idx1 t
  exact funext fun x => congrArg (V c main_arg14) (funext fun a => Fin.ext (win1_5.rect_emb_val_of_index_zero t a
    (match a with | ⟨0, _⟩ => e0 | ⟨1, _⟩ => e1) x))

theorem v12_c2b1_eq (t : Fin cfg1.N) : (c2b1 V c t : Cert.Spec.Arr 1 64) = V c main_v9 := by
  obtain ⟨-, -, -, -, -, -, ⟨e0, e1⟩, -⟩ := v12_idx1 t
  exact funext fun x => congrArg (V c main_v9) (funext fun a => Fin.ext (win1_6.rect_emb_val_of_index_zero t a
    (match a with | ⟨0, _⟩ => e0 | ⟨1, _⟩ => e1) x))

theorem v12_mem_blk1 (t : Fin cfg1.N) (i : S64x2048.Idx) :
    i ∈ ((cfg1.win 7).blk t).view.set ↔ ∀ a : Fin 2, win1_7.index t a * S64x2048.size a ≤ (i a).val ∧ (i a).val < win1_7.index t a * S64x2048.size a + S64x2048.size a := by
  show i ∈ ((View.whole main_v10).slice (win1_7.rect t)).set ↔ _
  rw [View.set_slice_whole, Rect.mem_set_unit]
  exact Iff.rfl

end

end Cert.KernelIdeal.Hand

end
-- ==== Proof.KI.Val1Acc.lean ====
import proofs.«104285_g40587440947829_cont_sun_m_1101_7_alg».proof.Proof.KI.Val12Hid
import proofs.«104285_g40587440947829_cont_sun_m_1101_7_alg».proof.Proof.KI.Val1Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

theorem v12_scr1_apply (q : Fin 2048) (k : Fin 64) :
    scr1 V c (ix2 q k) = Cert.Spec.mn (V c main_v7_3) (V c main_v8) (V c main_v7_2) q k := by
  unfold scr1
  rw [v12_k1_pay2_apply]
  show Cert.Spec.mn (m1t1 V c t1z : Cert.Spec.Arr 64 2048) (wr1 V c t1z : Cert.Spec.Arr 1 2048) (de1 V c t1z : Cert.Spec.Arr 1 2048) q k = _
  rw [v12_m1t1_eq, v12_wr1_eq, v12_de1_eq]

theorem v12_hid1 (t : Fin cfg1.N) (r : Fin 2000) (k : Fin 64) :
    v12_hidTile (Hb1 V c t) (sb1 V c t) (scr1 V c) (ix2 r k)
      = Cert.Spec.hid (V c main_v7_4) (V c main_v7_1) (V c main_v7_3) (V c main_v8) (V c main_v7_2) (v12_row t.val (v12_lt5_1 t) r) k :=
  v12_hidTile_eq_hid (V c main_v7_4) (V c main_v7_1) (V c main_v7_3) (V c main_v8) (V c main_v7_2) _ _ _ t.val (v12_lt5_1 t)
    (fun r q => v12_Hb1_apply V c t (ix2 r q) (ix2 (v12_row t.val (v12_lt5_1 t) r) q) rfl rfl)
    (fun r => v12_sb1_apply V c t (ix2 r (0 : Fin 1)) (ix2 (v12_row t.val (v12_lt5_1 t) r) (0 : Fin 1)) rfl rfl)
    (v12_scr1_apply V c) r k

def v12_term1 (Hh : Cert.Spec.Arr 10000 2048) (s : Cert.Spec.Arr 10000 1) (mt : Cert.Spec.Arr 64 2048) (wr de : Cert.Spec.Arr 1 2048)
    (c2W : Cert.Spec.Arr 64 64) (c2b : Cert.Spec.Arr 1 64) (d : Fin 64) (q : Fin 2048) (i : Fin 10000) : EReal :=
  (((∑ k : Fin 64, Cert.Spec.hid Hh s mt wr de i k * c2W (ix2 k d)) + c2b (ix2 0 d)) * s (ix2 i 0)) * Hh (ix2 i q)

def v12_termN (Hh : Cert.Spec.Arr 10000 2048) (s : Cert.Spec.Arr 10000 1) (mt : Cert.Spec.Arr 64 2048) (wr de : Cert.Spec.Arr 1 2048)
    (c2W : Cert.Spec.Arr 64 64) (c2b : Cert.Spec.Arr 1 64) (d : Fin 64) (q : Fin 2048) (x : ℕ) : EReal :=
  if h : x < 10000 then v12_term1 Hh s mt wr de c2W c2b d q ⟨x, h⟩ else 0

theorem v12_tile1 (t : Fin cfg1.N) (d : Fin 64) (q : Fin 2048) (r : Fin 2000) :
    (((∑ k : Fin 64, v12_hidTile (Hb1 V c t) (sb1 V c t) (scr1 V c) (ix2 r k) * (c2W1 V c t) (ix2 k d)) + (c2b1 V c t) (ix2 (0 : Fin 1) d))
        * (sb1 V c t) (ix2 r (0 : Fin 1))) * (Hb1 V c t) (ix2 r q)
      = v12_termN (V c main_v7_4) (V c main_v7_1) (V c main_v7_3) (V c main_v8) (V c main_v7_2) (V c main_arg14) (V c main_v9) d q (2000 * t.val + r.val) := by
  have hlt : 2000 * t.val + r.val < 10000 := by have := v12_lt5_1 t; have := r.isLt; omega
  have er : (⟨2000 * t.val + r.val, hlt⟩ : Fin 10000) = v12_row t.val (v12_lt5_1 t) r := rfl
  unfold v12_termN
  rw [dif_pos hlt, er]
  unfold v12_term1
  have e : (∑ k : Fin 64, v12_hidTile (Hb1 V c t) (sb1 V c t) (scr1 V c) (ix2 r k) * (c2W1 V c t) (ix2 k d))
      = ∑ k : Fin 64, Cert.Spec.hid (V c main_v7_4) (V c main_v7_1) (V c main_v7_3) (V c main_v8) (V c main_v7_2) (v12_row t.val (v12_lt5_1 t) r) k * (V c main_arg14 : Cert.Spec.Arr 64 64) (ix2 k d) :=
    Finset.sum_congr rfl fun k _ => by
      rw [v12_hid1 V c t r k]
      show _ * (c2W1 V c t : Cert.Spec.Arr 64 64) (ix2 k d) = _
      rw [v12_c2W1_eq]
  rw [e]
  show (_ + (c2b1 V c t : Cert.Spec.Arr 1 64) (ix2 0 d)) * _ * _ = _
  rw [v12_c2b1_eq, v12_sb1_apply V c t (ix2 r (0 : Fin 1)) (ix2 (v12_row t.val (v12_lt5_1 t) r) (0 : Fin 1)) rfl rfl,
    v12_Hb1_apply V c t (ix2 r q) (ix2 (v12_row t.val (v12_lt5_1 t) r) q) rfl rfl]

theorem v12_m2tAt_apply (d : Fin 64) (q : Fin 2048) : ∀ (n : ℕ) (h : n < cfg1.N),
    m2tAt V c n h (ix2 d q) = ∑ x ∈ Finset.range (2000 * (n + 1)),
      v12_termN (V c main_v7_4) (V c main_v7_1) (V c main_v7_3) (V c main_v8) (V c main_v7_2) (V c main_arg14) (V c main_v9) d q x
  | 0, h => by
    rw [m2tAt, v12_k1_pay3_apply]
    have ez : (k1_pay1 (F := Ideal)) (ix2 d q) = 0 := Ideal.ofBits_zero_f32
    rw [ez, zero_add, Finset.sum_congr rfl (fun r _ => v12_tile1 V c ⟨0, h⟩ d q r)]
    exact Fin.sum_univ_eq_sum_range (fun x => v12_termN (V c main_v7_4) (V c main_v7_1) (V c main_v7_3) (V c main_v8) (V c main_v7_2) (V c main_arg14) (V c main_v9) d q (2000 * 0 + x)) 2000 |>.trans (by simp)
  | n + 1, h => by
    rw [m2tAt, v12_k1_pay3_apply, v12_m2tAt_apply d q n (Nat.lt_of_succ_lt h), Finset.sum_congr rfl (fun r _ => v12_tile1 V c ⟨n + 1, h⟩ d q r)]
    rw [show 2000 * (n + 1 + 1) = 2000 * (n + 1) + 2000 by omega, Finset.sum_range_add]
    exact congrArg (_ + ·) (Fin.sum_univ_eq_sum_range (fun x => v12_termN (V c main_v7_4) (V c main_v7_1) (V c main_v7_3) (V c main_v8) (V c main_v7_2) (V c main_arg14) (V c main_v9) d q (2000 * (n + 1) + x)) 2000)

theorem v12_m2t_last (h4 : 4 < cfg1.N) : (m2tAt V c 4 h4 : Cert.Spec.Arr 64 2048)
    = fun j => Cert.Spec.m2t (V c main_v7_4) (V c main_v7_1) (V c main_v7_3) (V c main_v8) (V c main_v7_2) (V c main_arg14) (V c main_v9) (j 0) (j 1) := by
  funext j
  obtain ⟨d, q, rfl⟩ : ∃ (d : Fin 64) (q : Fin 2048), j = ix2 d q := ⟨j 0, j 1, eq_ix2 j⟩
  rw [v12_m2tAt_apply]
  show ∑ x ∈ Finset.range 10000, _ = _
  rw [← Fin.sum_univ_eq_sum_range]
  unfold Cert.Spec.m2t
  refine Finset.sum_congr rfl fun i _ => ?_
  unfold v12_termN
  rw [dif_pos i.isLt]
  rfl

abbrev v12_G1 : Cert.Spec.Arr 64 2048 := fun j =>
  Cert.Spec.m2t (V c main_v7_4) (V c main_v7_1) (V c main_v7_3) (V c main_v8) (V c main_v7_2) (V c main_arg14) (V c main_v9) (j 0) (j 1)

theorem v12_flushed1_eq (t : Fin cfg1.N) (hf : (cfg1.win 7).flush t = true) :
    (dat1 (F := Ideal) V c).flushed 7 t = ((cfg1.win 7).blk t).view.read (Elt Ideal) (v12_G1 V c) := by
  have hN : cfg1.N = 5 := N_1
  have h4 : t.val = 4 := by have := (flush1_7 t).mp hf; have := t.isLt; omega
  obtain rfl : t = t1_4 := Fin.ext h4
  obtain ⟨-, -, -, -, -, -, -, ⟨e0, e1⟩⟩ := v12_idx1 t1_4
  show (cfg1.win 7).cut (grid1.coords t1_4) ((dat1 (F := Ideal) V c).after 7 t1_4) = _
  dsimp only [dat1]
  funext y
  rw [View.read_apply]

  obtain ⟨d, q, hz⟩ : ∃ (d : Fin 64) (q : Fin 2048), (cfg1.win 7).xinj (grid1.coords t1_4) y = ix2 d q := ⟨_, _, eq_ix2 _⟩
  have hd : d.val = (y 0).val := (congrArg Fin.val (congrFun hz (0 : Fin 2))).symm
  have hq : q.val = (y 1).val := (congrArg Fin.val (congrFun hz (1 : Fin 2))).symm
  refine ((congrArg (m2tAt V c 4 t1_4.isLt : Cert.Spec.Arr 64 2048) hz).trans (congrFun (v12_m2t_last V c t1_4.isLt) (ix2 d q))).trans ?_
  show v12_G1 V c (ix2 d q) = v12_G1 V c (((cfg1.win 7).blk t1_4).view.emb y)
  congr 1
  funext a
  apply Fin.ext
  match a with
  | ⟨0, _⟩ => show d.val = win1_7.index t1_4 0 * 64 + 1 * (y 0).val; rw [e0, hd]; omega
  | ⟨1, _⟩ => show q.val = win1_7.index t1_4 1 * 2048 + 1 * (y 1).val; rw [e1, hq]; omega

theorem val1 :
    ((dat1 (F := Ideal) V c).arrAt 7 cfg1.N : Cert.Spec.Arr 64 2048)
      = fun j => Cert.Spec.m2t (V c main_v7_4) (V c main_v7_1) (V c main_v7_3) (V c main_v8) (V c main_v7_2)
          (V c main_arg14) (V c main_v9) (j 0) (j 1) :=
  (dat1 (F := Ideal) V c).arrAt_eq_of_cover 7 (v12_G1 V c) (v12_flushed1_eq V c) fun i => by
    have hi0 : (i 0).val < 64 := (i 0).isLt
    have hi1 : (i 1).val < 2048 := (i 1).isLt
    obtain ⟨-, -, -, -, -, -, -, ⟨e0, e1⟩⟩ := v12_idx1 t1_4
    refine ⟨t1_4, (flush1_7 t1_4).mpr rfl, ?_⟩
    rw [v12_mem_blk1]
    intro a
    match a with
    | ⟨0, _⟩ => show win1_7.index t1_4 0 * 64 ≤ (i 0).val ∧ (i 0).val < win1_7.index t1_4 0 * 64 + 64; rw [e0]; omega
    | ⟨1, _⟩ => show win1_7.index t1_4 1 * 2048 ≤ (i 1).val ∧ (i 1).val < win1_7.index t1_4 1 * 2048 + 2048; rw [e1]; omega

end

end Cert.KernelIdeal.Hand

end
-- ==== Proof.KI.Val1.lean ====
import proofs.«104285_g40587440947829_cont_sun_m_1101_7_alg».proof.Proof.KI.Val1Acc
-- ==== Proof.KI.Val2Blocks.lean ====
import proofs.«104285_g40587440947829_cont_sun_m_1101_7_alg».proof.Proof.KI.Dats
import proofs.«104285_g40587440947829_cont_sun_m_1101_7_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

theorem v12_lt5_2 (t : Fin cfg2.N) : t.val < 5 := t.isLt.trans_eq N_2

theorem v12_idx2 : ∀ t : Fin cfg2.N,
    (win2_0.index t 0 = t.val ∧ win2_0.index t 1 = 0) ∧ (win2_1.index t 0 = t.val ∧ win2_1.index t 1 = 0)
    ∧ (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_6.index t 0 = 0 ∧ win2_6.index t 1 = 0) ∧ (win2_7.index t 0 = t.val ∧ win2_7.index t 1 = 0) :=
  (by decide +kernel : ∀ t : Fin grid2.N, _)

theorem v12_Hb2_apply (t : Fin cfg2.N) (x : S2000x2048.Idx) (k : S10000x2048.Idx)
    (hk0 : (k 0).val = 2000 * t.val + (x 0).val) (hk1 : (k 1).val = (x 1).val) :
    (Hb2 V c t) x = (V c main_v7_4 : Cert.Spec.Arr 10000 2048) k := by
  obtain ⟨⟨e0, e1⟩, -⟩ := v12_idx2 t
  unfold Hb2 iblk2
  rw [View.read_apply]
  show V c main_v7_4 _ = V c main_v7_4 _
  congr 1
  funext a
  apply Fin.ext
  match a with
  | ⟨0, _⟩ => show win2_0.index t 0 * 2000 + 1 * (x 0).val = (k 0).val; rw [e0, hk0]; omega
  | ⟨1, _⟩ => show win2_0.index t 1 * 2048 + 1 * (x 1).val = (k 1).val; rw [e1, hk1]; omega

theorem v12_sb2_apply (t : Fin cfg2.N) (x : S2000x1.Idx) (k : S10000x1.Idx)
    (hk0 : (k 0).val = 2000 * t.val + (x 0).val) (hk1 : (k 1).val = (x 1).val) :
    (sb2 V c t) x = (V c main_v7_1 : Cert.Spec.Arr 10000 1) k := by
  obtain ⟨-, ⟨e0, e1⟩, -⟩ := v12_idx2 t
  unfold sb2 iblk2
  rw [View.read_apply]
  show V c main_v7_1 _ = V c main_v7_1 _
  congr 1
  funext a
  apply Fin.ext
  match a with
  | ⟨0, _⟩ => show win2_1.index t 0 * 2000 + 1 * (x 0).val = (k 0).val; rw [e0, hk0]; omega
  | ⟨1, _⟩ => show win2_1.index t 1 * 1 + 1 * (x 1).val = (k 1).val; rw [e1, hk1]; omega

theorem v12_m2t2_eq (t : Fin cfg2.N) : (m2t2 V c t : Cert.Spec.Arr 64 2048) = V c main_v10 := by
  obtain ⟨-, -, ⟨e0, e1⟩, -⟩ := v12_idx2 t
  exact funext fun x => congrArg (V c main_v10) (funext fun a => Fin.ext (win2_2.rect_emb_val_of_index_zero t a
    (match a with | ⟨0, _⟩ => e0 | ⟨1, _⟩ => e1) x))

theorem v12_wr2_eq (t : Fin cfg2.N) : (wr2 V c t : Cert.Spec.Arr 1 2048) = V c main_v8 := by
  obtain ⟨-, -, -, ⟨e0, e1⟩, -⟩ := v12_idx2 t
  exact funext fun x => congrArg (V c main_v8) (funext fun a => Fin.ext (win2_3.rect_emb_val_of_index_zero t a
    (match a with | ⟨0, _⟩ => e0 | ⟨1, _⟩ => e1) x))

theorem v12_de2_eq (t : Fin cfg2.N) : (de2 V c t : Cert.Spec.Arr 1 2048) = V c main_v7_2 := by
  obtain ⟨-, -, -, -, ⟨e0, e1⟩, -⟩ := v12_idx2 t
  exact funext fun x => congrArg (V c main_v7_2) (funext fun a => Fin.ext (win2_4.rect_emb_val_of_index_zero t a
    (match a with | ⟨0, _⟩ => e0 | ⟨1, _⟩ => e1) x))

theorem v12_hdW2_eq (t : Fin cfg2.N) : (hdW2 V c t : Cert.Spec.Arr 64 2) = V c main_arg16 := by
  obtain ⟨-, -, -, -, -, ⟨e0, e1⟩, -⟩ := v12_idx2 t
  exact funext fun x => congrArg (V c main_arg16) (funext fun a => Fin.ext (win2_5.rect_emb_val_of_index_zero t a
    (match a with | ⟨0, _⟩ => e0 | ⟨1, _⟩ => e1) x))

theorem v12_hdb2_eq (t : Fin cfg2.N) : (hdb2 V c t : Cert.Spec.Arr 1 2) = V c main_v11 := by
  obtain ⟨-, -, -, -, -, -, ⟨e0, e1⟩, -⟩ := v12_idx2 t
  exact funext fun x => congrArg (V c main_v11) (funext fun a => Fin.ext (win2_6.rect_emb_val_of_index_zero t a
    (match a with | ⟨0, _⟩ => e0 | ⟨1, _⟩ => e1) x))

theorem v12_mem_blk2 (t : Fin cfg2.N) (i : S10000x2.Idx) :
    i ∈ ((cfg2.win 7).blk t).view.set ↔ ∀ a : Fin 2, win2_7.index t a * S2000x2.size a ≤ (i a).val ∧ (i a).val < win2_7.index t a * S2000x2.size a + S2000x2.size a := by
  show i ∈ ((View.whole main_v12).slice (win2_7.rect t)).set ↔ _
  rw [View.set_slice_whole, Rect.mem_set_unit]
  exact Iff.rfl

end

end Cert.KernelIdeal.Hand

end
-- ==== Proof.KI.Val2Out.lean ====
import proofs.«104285_g40587440947829_cont_sun_m_1101_7_alg».proof.Proof.KI.Val12Hid
import proofs.«104285_g40587440947829_cont_sun_m_1101_7_alg».proof.Proof.KI.Val2Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

theorem v12_scr2_apply (q : Fin 2048) (k : Fin 64) :
    scr2 V c (ix2 q k) = Cert.Spec.mn (V c main_v10) (V c main_v8) (V c main_v7_2) q k := by
  unfold scr2
  rw [v12_k2_pay1_eq, v12_k1_pay2_apply]
  show Cert.Spec.mn (m2t2 V c t2z : Cert.Spec.Arr 64 2048) (wr2 V c t2z : Cert.Spec.Arr 1 2048) (de2 V c t2z : Cert.Spec.Arr 1 2048) q k = _
  rw [v12_m2t2_eq, v12_wr2_eq, v12_de2_eq]

theorem v12_hid2 (t : Fin cfg2.N) (r : Fin 2000) (k : Fin 64) :
    v12_hidTile (Hb2 V c t) (sb2 V c t) (scr2 V c) (ix2 r k)
      = Cert.Spec.hid (V c main_v7_4) (V c main_v7_1) (V c main_v10) (V c main_v8) (V c main_v7_2) (v12_row t.val (v12_lt5_2 t) r) k :=
  v12_hidTile_eq_hid (V c main_v7_4) (V c main_v7_1) (V c main_v10) (V c main_v8) (V c main_v7_2) _ _ _ t.val (v12_lt5_2 t)
    (fun r q => v12_Hb2_apply V c t (ix2 r q) (ix2 (v12_row t.val (v12_lt5_2 t) r) q) rfl rfl)
    (fun r => v12_sb2_apply V c t (ix2 r (0 : Fin 1)) (ix2 (v12_row t.val (v12_lt5_2 t) r) (0 : Fin 1)) rfl rfl)
    (v12_scr2_apply V c) r k

theorem v12_outAt_apply (t : Fin cfg2.N) (r : Fin 2000) (j : Fin 2) :
    outAt V c t (ix2 r j)
      = Cert.Spec.logits (V c main_v7_4) (V c main_v7_1) (V c main_v10) (V c main_v8) (V c main_v7_2) (V c main_arg16) (V c main_v11) (v12_row t.val (v12_lt5_2 t) r) j := by
  unfold outAt
  rw [v12_k2_pay2_apply]
  unfold Cert.Spec.logits
  have e : (∑ k : Fin 64, v12_hidTile (Hb2 V c t) (sb2 V c t) (scr2 V c) (ix2 r k) * (hdW2 V c t) (ix2 k j))
      = ∑ k : Fin 64, Cert.Spec.hid (V c main_v7_4) (V c main_v7_1) (V c main_v10) (V c main_v8) (V c main_v7_2) (v12_row t.val (v12_lt5_2 t) r) k * (V c main_arg16 : Cert.Spec.Arr 64 2) (ix2 k j) :=
    Finset.sum_congr rfl fun k _ => by
      rw [v12_hid2 V c t r k]
      show _ * (hdW2 V c t : Cert.Spec.Arr 64 2) (ix2 k j) = _
      rw [v12_hdW2_eq]
  rw [e]
  show _ + (hdb2 V c t : Cert.Spec.Arr 1 2) (ix2 0 j) = _
  rw [v12_hdb2_eq]

abbrev v12_G2 : Cert.Spec.Arr 10000 2 := fun j =>
  Cert.Spec.logits (V c main_v7_4) (V c main_v7_1) (V c main_v10) (V c main_v8) (V c main_v7_2) (V c main_arg16) (V c main_v11) (j 0) (j 1)

theorem v12_flushed2_eq (t : Fin cfg2.N) :
    (dat2 (F := Ideal) V c).flushed 7 t = ((cfg2.win 7).blk t).view.read (Elt Ideal) (v12_G2 V c) := by
  obtain ⟨-, -, -, -, -, -, -, ⟨e0, e1⟩⟩ := v12_idx2 t
  show (cfg2.win 7).cut (grid2.coords t) ((dat2 (F := Ideal) V c).after 7 t) = _
  dsimp only [dat2]
  funext y
  rw [View.read_apply]

  obtain ⟨r, j, hz⟩ : ∃ (r : Fin 2000) (j : Fin 2), (cfg2.win 7).xinj (grid2.coords t) y = ix2 r j := ⟨_, _, eq_ix2 _⟩
  have hr : r.val = (y 0).val := (congrArg Fin.val (congrFun hz (0 : Fin 2))).symm
  have hj : j.val = (y 1).val := (congrArg Fin.val (congrFun hz (1 : Fin 2))).symm
  refine ((congrArg (outAt V c t) hz).trans (v12_outAt_apply V c t r j)).trans ?_
  show v12_G2 V c (ix2 (v12_row t.val (v12_lt5_2 t) r) j) = v12_G2 V c (((cfg2.win 7).blk t).view.emb y)
  congr 1
  funext a
  apply Fin.ext
  match a with
  | ⟨0, _⟩ => show 2000 * t.val + r.val = win2_7.index t 0 * 2000 + 1 * (y 0).val; rw [e0, hr]; omega
  | ⟨1, _⟩ => show j.val = win2_7.index t 1 * 2 + 1 * (y 1).val; rw [e1, hj]; omega

theorem val2 :
    ((dat2 (F := Ideal) V c).arrAt 7 cfg2.N : Cert.Spec.Arr 10000 2)
      = fun j => Cert.Spec.logits (V c main_v7_4) (V c main_v7_1) (V c main_v10) (V c main_v8) (V c main_v7_2)
          (V c main_arg16) (V c main_v11) (j 0) (j 1) :=
  (dat2 (F := Ideal) V c).arrAt_eq_of_cover 7 (v12_G2 V c) (fun t _ => v12_flushed2_eq V c t) fun i => by
    have hi0 : (i 0).val < 10000 := (i 0).isLt
    have hi1 : (i 1).val < 2 := (i 1).isLt
    have hN : cfg2.N = 5 := N_2
    refine ⟨⟨(i 0).val / 2000, by rw [hN]; omega⟩, flush2_7 _, ?_⟩
    obtain ⟨-, -, -, -, -, -, -, ⟨e0, e1⟩⟩ := v12_idx2 ⟨(i 0).val / 2000, by rw [hN]; omega⟩
    rw [v12_mem_blk2]
    intro a
    match a with
    | ⟨0, _⟩ => show win2_7.index _ 0 * 2000 ≤ (i 0).val ∧ (i 0).val < win2_7.index _ 0 * 2000 + 2000; rw [e0]; dsimp only; omega
    | ⟨1, _⟩ => show win2_7.index _ 1 * 2 ≤ (i 1).val ∧ (i 1).val < win2_7.index _ 1 * 2 + 2; rw [e1]; omega

end

end Cert.KernelIdeal.Hand

end
-- ==== Proof.KI.Val2.lean ====
import proofs.«104285_g40587440947829_cont_sun_m_1101_7_alg».proof.Proof.KI.Val2Out
-- ==== Proof.KI.Compose.lean ====
import proofs.«104285_g40587440947829_cont_sun_m_1101_7_alg».proof.Proof.KI.ComposeVals
import proofs.«104285_g40587440947829_cont_sun_m_1101_7_alg».proof.Proof.KI.Val0
import proofs.«104285_g40587440947829_cont_sun_m_1101_7_alg».proof.Proof.KI.Val1
import proofs.«104285_g40587440947829_cont_sun_m_1101_7_alg».proof.Proof.KI.Val2

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Spec (Arr)
open Cert.ReferenceIdeal.Hand (row W16 S1 De1 M1 M2)

theorem cp_vals : cp_Vals := ⟨val0_gate, val0_isd, val0_de, val0_m1t, val0_h, val1, val2⟩

variable (m : (ℓ : Loc nD τ sig) → Buf (Elt Ideal) ℓ)

theorem kernel_gate (c : Dev nD) : ((dat0 (F := Ideal) (ent1 m) c).arrAt 14 cfg0.N : Arr 10000 32) = fun j =>
    Cert.Spec.gate (cp_aX m c) (cp_aZ m c) (cp_aPsiW m c) (row (cp_aPsib m c)) (cp_aPhiW m c) (row (cp_aPhib m c)) (cp_aG1W m c) (row (cp_aG1b m c))
      (cp_aG2W m c) (row (cp_aG2b m c)) (j 0) (j 1) :=
  cp_gate_of_vals m cp_vals c

theorem kernel_logits (c : Dev nD) : ((dat2 (F := Ideal) (ent5 m) c).arrAt 7 cfg2.N : Arr 10000 2) = fun j =>
    Cert.Spec.logits (cp_aH m c) (S1 (cp_aH m c) (cp_aW m c))
      (M2 (cp_aH m c) (cp_aX m c) (cp_aZ m c) (cp_aW m c) (cp_aPsiW m c) (cp_aPsib m c) (cp_aPhiW m c) (cp_aPhib m c) (cp_aG1W m c) (cp_aG1b m c) (cp_aG2W m c) (cp_aG2b m c)
        (cp_aC1W m c) (cp_aC1b m c) (cp_aC2W m c) (cp_aC2b m c))
      (row (cp_aW m c)) (De1 (cp_aH m c)) (cp_aHdW m c) (row (cp_aHdb m c)) (j 0) (j 1) :=
  cp_logits_of_vals m cp_vals c

end Cert.KernelIdeal.Hand

end
-- ==== Proof.RefGen.lean ====
import proofs.«104285_g40587440947829_cont_sun_m_1101_7_alg».proof.Proof.Gen.ReferenceIdeal.Run
import proofs.«104285_g40587440947829_cont_sun_m_1101_7_alg».proof.Proof.Gen.ReferenceIdeal.Read
-- ==== Proof.RefGate.lean ====
import proofs.«104285_g40587440947829_cont_sun_m_1101_7_alg».proof.Proof.RefDefs
import proofs.«104285_g40587440947829_cont_sun_m_1101_7_alg».proof.Proof.Gen.ReferenceIdeal.Read
import Idealize.ShloMosaic.Lib.IdealHost

noncomputable section

namespace Cert.ReferenceIdeal.Hand

open Idealize.ShloMosaic Idealize.ShloMosaic.ValueIdx
open Cert.ReferenceIdeal Cert.ReferenceIdeal.Read
open Cert.Spec (Arr)

section

variable (x : Arr 10000 128) (z : Arr 10000 16)
  (psiW : Arr 128 32) (psib : Vec 32) (phiW : Arr 16 32) (phib : Vec 32)
  (g1W : Arr 64 64) (g1b : Vec 64) (g2W : Arr 64 32) (g2b : Vec 32)

theorem lin_x (p : Fin 10000) (q : Fin 32) :
    val_main_v3 (F := Ideal) x psiW psib (ix2 p q) = Cert.Spec.lin x psiW (row psib) p q := by
  rw [val_main_v3_apply, val_main_v0_apply, val_main_v2_apply, val_main_v1_apply]
  have e1 : ∀ k : Fin 128, lidx_main_v0 (ix2 p q) k = ix2 p k := fun k =>
    funext fun a => match a with | ⟨0, _⟩ => rfl | ⟨1, _⟩ => rfl
  have e2 : ∀ k : Fin 128, ridx_main_v0 (ix2 p q) k = ix2 k q := fun k =>
    funext fun a => match a with | ⟨0, _⟩ => rfl | ⟨1, _⟩ => rfl
  have e3 : idx_main_v1 (idx_main_v2 (ix2 p q)) = ix1 q :=
    funext fun a => match a with | ⟨0, _⟩ => rfl
  simp only [e1, e2, e3, Ideal.addf_def, Cert.Spec.lin, row]

theorem lin_z (p : Fin 10000) (q : Fin 32) :
    val_main_v7 (F := Ideal) z phiW phib (ix2 p q) = Cert.Spec.lin z phiW (row phib) p q := by
  rw [val_main_v7_apply, val_main_v4_apply, val_main_v6_apply, val_main_v5_apply]
  have e1 : ∀ k : Fin 16, lidx_main_v4 (ix2 p q) k = ix2 p k := fun k =>
    funext fun a => match a with | ⟨0, _⟩ => rfl | ⟨1, _⟩ => rfl
  have e2 : ∀ k : Fin 16, ridx_main_v4 (ix2 p q) k = ix2 k q := fun k =>
    funext fun a => match a with | ⟨0, _⟩ => rfl | ⟨1, _⟩ => rfl
  have e3 : idx_main_v5 (idx_main_v6 (ix2 p q)) = ix1 q :=
    funext fun a => match a with | ⟨0, _⟩ => rfl
  simp only [e1, e2, e3, Ideal.addf_def, Cert.Spec.lin, row]

theorem cat_apply (p : Fin 10000) (r : Fin 64) :
    val_main_v8 (F := Ideal) x z psiW psib phiW phib (ix2 p r)
      = Cert.Spec.cat (Cert.Spec.lin x psiW (row psib)) (Cert.Spec.lin z phiW (row phib)) p r := by
  unfold val_main_v8 Cert.Spec.cat
  by_cases h : r.val < 32
  · rw [dif_pos h, concatenate_pair_apply_left (t := S10000x64) (s₁ := S10000x32) (s₂ := S10000x32) 1 _ _ _ (ix2 p r) rfl
      (ix2 p ⟨r.val, h⟩)
      (fun b => match b with | ⟨0, _⟩ => rfl | ⟨1, _⟩ => rfl)]
    exact lin_x x psiW psib p ⟨r.val, h⟩
  · rw [dif_neg h, concatenate_pair_apply_right (t := S10000x64) (s₁ := S10000x32) (s₂ := S10000x32) 1 _ _ _ (ix2 p r) rfl rfl
      (ix2 p ⟨r.val - 32, by omega⟩)
      (fun b hb => match b, hb with | ⟨0, _⟩, _ => rfl | ⟨1, _⟩, hb => absurd rfl hb)
      (by show r.val - 32 + 32 = r.val; omega)]
    exact lin_z z phiW phib p ⟨r.val - 32, by omega⟩

theorem gh_apply (p : Fin 10000) (r : Fin 64) :
    val_main_v13 (F := Ideal) x z psiW psib phiW phib g1W g1b (ix2 p r)
      = Cert.Spec.gh x z psiW (row psib) phiW (row phib) g1W (row g1b) p r := by
  rw [val_main_v13_apply, val_main_v12_apply, val_main_v9_apply, val_main_v11_apply, val_main_v10_apply,
    val_main_call0_v0_apply, val_main_call0_cst_apply]
  have e1 : ∀ k : Fin 64, lidx_main_v9 (ix2 p r) k = ix2 p k := fun k =>
    funext fun a => match a with | ⟨0, _⟩ => rfl | ⟨1, _⟩ => rfl
  have e2 : ∀ k : Fin 64, ridx_main_v9 (ix2 p r) k = ix2 k r := fun k =>
    funext fun a => match a with | ⟨0, _⟩ => rfl | ⟨1, _⟩ => rfl
  have e3 : idx_main_v10 (idx_main_v11 (ix2 p r)) = ix1 r :=
    funext fun a => match a with | ⟨0, _⟩ => rfl
  simp only [e1, e2, e3, cat_apply, Ideal.addf_def, Ideal.maximumf_def, Ideal.ofBits_def, Cert.Spec.gh,
    Cert.Spec.zero, row]

theorem gate_apply (p : Fin 10000) (q : Fin 32) :
    val_main_v23 (F := Ideal) x z psiW psib phiW phib g1W g1b g2W g2b (ix2 p q)
      = Cert.Spec.gate x z psiW (row psib) phiW (row phib) g1W (row g1b) g2W (row g2b) p q := by
  rw [val_main_v23_apply, val_main_v22_apply, val_main_cst_0_apply, val_main_v21_apply, val_main_v20_apply,
    val_main_cst_apply, val_main_v19_apply, val_main_v18_apply, val_main_v17_apply, val_main_v14_apply,
    val_main_v16_apply, val_main_v15_apply]
  have e1 : ∀ k : Fin 64, lidx_main_v14 (ix2 p q) k = ix2 p k := fun k =>
    funext fun a => match a with | ⟨0, _⟩ => rfl | ⟨1, _⟩ => rfl
  have e2 : ∀ k : Fin 64, ridx_main_v14 (ix2 p q) k = ix2 k q := fun k =>
    funext fun a => match a with | ⟨0, _⟩ => rfl | ⟨1, _⟩ => rfl
  have e3 : idx_main_v15 (idx_main_v16 (ix2 p q)) = ix1 q :=
    funext fun a => match a with | ⟨0, _⟩ => rfl
  simp only [e1, e2, e3, gh_apply, Ideal.hostDivf_def, Ideal.addf_def, Ideal.hostUnary_exp_def, Ideal.hostNegf_def,
    Ideal.negf_def, Ideal.ofBits_def, Ideal.ofBits_one_f32, Cert.Spec.gate, Ideal.logistic, row]

theorem ref_gate (j : S10000x32.Idx) :
    val_main_v23 (F := Ideal) x z psiW psib phiW phib g1W g1b g2W g2b j
      = Cert.Spec.gate x z psiW (row psib) phiW (row phib) g1W (row g1b) g2W (row g2b) (j 0) (j 1) := by
  obtain ⟨p, q, rfl⟩ : ∃ (p : Fin 10000) (q : Fin 32), j = ix2 p q := ⟨j 0, j 1, eq_ix2 j⟩
  exact gate_apply x z psiW psib phiW phib g1W g1b g2W g2b p q

theorem fused_apply (p : Fin 10000) (q : Fin 32) :
    val_main_v28 (F := Ideal) x z psiW psib phiW phib g1W g1b g2W g2b (ix2 p q)
      = Cert.Spec.fused x z psiW (row psib) phiW (row phib) g1W (row g1b) g2W (row g2b) p q := by
  rw [val_main_v28_apply, val_main_v24_apply, val_main_v27_apply, val_main_v26_apply, val_main_v25_apply,
    val_main_cst_1_apply, gate_apply, lin_x, lin_z]
  simp only [Ideal.addf_def, Ideal.mulf_def, Ideal.subf_def, Ideal.ofBits_def, Cert.Spec.fused, Cert.Spec.one]

end

end Cert.ReferenceIdeal.Hand

end
-- ==== Proof.RefConv.lean ====
import proofs.«104285_g40587440947829_cont_sun_m_1101_7_alg».proof.Proof.RefGate

noncomputable section

namespace Cert.ReferenceIdeal.Hand

open Idealize.ShloMosaic Idealize.ShloMosaic.ValueIdx
open Cert.ReferenceIdeal Cert.ReferenceIdeal.Read
open Cert.Spec (Arr)

section

variable (H : Arr 10000 2048) (w : Vec 2048)

theorem dv_apply (p : Fin 10000) :
    val_main_v36 (F := Ideal) H w (ix1 p) = Cert.Spec.dv H (W16 w) p := by
  rw [val_main_v36_apply, val_main_cst_2_apply]
  have e1 : ∀ k : Fin 2048, idx_main_v36 (ix1 p) k = ix2 p k := fun k =>
    funext fun a => match a with | ⟨0, _⟩ => rfl | ⟨1, _⟩ => rfl
  have e2 : ∀ k : Fin 2048, idx_main_v33 (idx_main_v34 (ix2 p k)) = ix1 k := fun k =>
    funext fun a => match a with | ⟨0, _⟩ => rfl
  simp only [e1, val_main_v35_apply, val_main_v34_apply, val_main_v33_apply, e2, Ideal.ofBits_def,
    Ideal.ofBits_zero_f32, zero_add, Ideal.mulf_def, Cert.Spec.dv, W16]

theorem isd_apply (p : Fin 10000) :
    val_main_v40 (F := Ideal) H w (ix1 p) = Cert.Spec.isd H (W16 w) p := by
  rw [val_main_v40_apply, val_main_v39_apply, dv_apply, val_main_v38_apply, val_main_cst_4_apply]
  simp only [Ideal.hostUnary_rsqrt_def, Ideal.addf_def, Ideal.ofBits_def, Cert.Spec.isd, Cert.Spec.eps]

theorem isd_col_in1 (p : Fin 10000) (d : Fin 64) :
    val_main_v42 (F := Ideal) H w (ix2 p d) = Cert.Spec.isd H (W16 w) p := by
  rw [val_main_v42_apply, val_main_v41_apply]
  have e : idx_main_v41 (idx_main_v42 (ix2 p d)) = ix1 p :=
    funext fun a => match a with | ⟨0, _⟩ => rfl
  rw [e, isd_apply]

theorem de_apply (q : Fin 2048) :
    val_main_v37 (F := Ideal) H (ix1 q) = Cert.Spec.de H q := by
  rw [val_main_v37_apply, val_main_cst_3_apply]
  have e1 : ∀ k : Fin 10000, idx_main_v37 (ix1 q) k = ix2 k q := fun k =>
    funext fun a => match a with | ⟨0, _⟩ => rfl | ⟨1, _⟩ => rfl
  simp only [e1, Ideal.ofBits_def, Ideal.ofBits_zero_f32, zero_add, Cert.Spec.de]

theorem se_apply (q : Fin 2048) :
    val_main_v48 (F := Ideal) H w (ix1 q) = Cert.Spec.se (row w) (De1 H) q := by
  rw [val_main_v48_apply, val_main_v47_apply, de_apply, val_main_v46_apply, val_main_cst_5_apply]
  simp only [Ideal.hostDivf_def, Ideal.addf_def, Ideal.ofBits_def, Cert.Spec.se, Cert.Spec.eps, row, De1]

theorem se_col1 (q : Fin 2048) (d : Fin 64) :
    val_main_v50 (F := Ideal) H w (ix2 q d) = Cert.Spec.se (row w) (De1 H) q := by
  rw [val_main_v50_apply, val_main_v49_apply]
  have e : idx_main_v49 (idx_main_v50 (ix2 q d)) = ix1 q :=
    funext fun a => match a with | ⟨0, _⟩ => rfl
  rw [e, se_apply]

theorem isd_col_in2 (p : Fin 10000) (d : Fin 64) :
    val_main_v70 (F := Ideal) H w (ix2 p d) = Cert.Spec.isd H (W16 w) p := isd_col_in1 H w p d
theorem isd_col_out1 (p : Fin 10000) (d : Fin 64) :
    val_main_v54 (F := Ideal) H w (ix2 p d) = Cert.Spec.isd H (W16 w) p := isd_col_in1 H w p d
theorem isd_col_out2 (p : Fin 10000) (d : Fin 64) :
    val_main_v82 (F := Ideal) H w (ix2 p d) = Cert.Spec.isd H (W16 w) p := isd_col_in1 H w p d
theorem se_col2 (q : Fin 2048) (d : Fin 64) :
    val_main_v78 (F := Ideal) H w (ix2 q d) = Cert.Spec.se (row w) (De1 H) q := se_col1 H w q d

theorem ht1 (q : Fin 2048) (k : Fin 10000) :
    val_main_v44 (F := Ideal) H (ix2 q k) = H (ix2 k q) := by
  rw [val_main_v44_apply]
  exact congrArg H (funext fun a => match a with | ⟨0, _⟩ => rfl | ⟨1, _⟩ => rfl)
theorem ht2 (q : Fin 2048) (k : Fin 10000) :
    val_main_v72 (F := Ideal) H (ix2 q k) = H (ix2 k q) := ht1 H q k

end

section

variable (x : Arr 10000 128) (z : Arr 10000 16) (H : Arr 10000 2048) (w : Vec 2048)
  (psiW : Arr 128 32) (psib : Vec 32) (phiW : Arr 16 32) (phib : Vec 32)
  (g1W : Arr 64 64) (g1b : Vec 64) (g2W : Arr 64 32) (g2b : Vec 32) (c1W : Arr 32 64) (c1b : Vec 64)

theorem aff1_apply (p : Fin 10000) (d : Fin 64) :
    val_main_v32 (F := Ideal) x z psiW psib phiW phib g1W g1b g2W g2b c1W c1b (ix2 p d)
      = (∑ k : Fin 32, Cert.Spec.fused x z psiW (row psib) phiW (row phib) g1W (row g1b) g2W (row g2b) p k * c1W (ix2 k d)) + row c1b (ix2 0 d) := by
  rw [val_main_v32_apply, val_main_v29_apply, val_main_v31_apply, val_main_v30_apply]
  have e1 : ∀ k : Fin 32, lidx_main_v29 (ix2 p d) k = ix2 p k := fun k =>
    funext fun a => match a with | ⟨0, _⟩ => rfl | ⟨1, _⟩ => rfl
  have e2 : ∀ k : Fin 32, ridx_main_v29 (ix2 p d) k = ix2 k d := fun k =>
    funext fun a => match a with | ⟨0, _⟩ => rfl | ⟨1, _⟩ => rfl
  have e3 : idx_main_v30 (idx_main_v31 (ix2 p d)) = ix1 d :=
    funext fun a => match a with | ⟨0, _⟩ => rfl
  simp only [e1, e2, e3, fused_apply, Ideal.addf_def, row]

theorem xn1_apply (p : Fin 10000) (d : Fin 64) :
    val_main_v43 (F := Ideal) x z H w psiW psib phiW phib g1W g1b g2W g2b c1W c1b (ix2 p d) = Cert.Spec.xn1 H x z (W16 w) psiW (row psib) phiW (row phib) g1W (row g1b) g2W (row g2b) c1W (row c1b) p d := by
  rw [val_main_v43_apply, aff1_apply, isd_col_in1]
  simp only [Ideal.mulf_def, Cert.Spec.xn1]

theorem m1_apply (q : Fin 2048) (d : Fin 64) :
    val_main_v45 (F := Ideal) x z H w psiW psib phiW phib g1W g1b g2W g2b c1W c1b (ix2 q d) = Cert.Spec.m1t H x z (W16 w) psiW (row psib) phiW (row phib) g1W (row g1b) g2W (row g2b) c1W (row c1b) d q := by
  rw [val_main_v45_apply]
  have e1 : ∀ k : Fin 10000, lidx_main_v45 (ix2 q d) k = ix2 q k := fun k =>
    funext fun a => match a with | ⟨0, _⟩ => rfl | ⟨1, _⟩ => rfl
  have e2 : ∀ k : Fin 10000, ridx_main_v45 (ix2 q d) k = ix2 k d := fun k =>
    funext fun a => match a with | ⟨0, _⟩ => rfl | ⟨1, _⟩ => rfl
  simp only [e1, e2, ht1, xn1_apply, Cert.Spec.m1t]
  exact Finset.sum_congr rfl fun k _ => mul_comm _ _

theorem mn1_apply (q : Fin 2048) (d : Fin 64) :
    val_main_v51 (F := Ideal) x z H w psiW psib phiW phib g1W g1b g2W g2b c1W c1b (ix2 q d) = Cert.Spec.mn (M1 H x z w psiW psib phiW phib g1W g1b g2W g2b c1W c1b) (row w) (De1 H) q d := by
  rw [val_main_v51_apply, m1_apply, se_col1]
  simp only [Ideal.mulf_def, Cert.Spec.mn, M1]

theorem hid1_apply (p : Fin 10000) (d : Fin 64) :
    val_main_v56 (F := Ideal) x z H w psiW psib phiW phib g1W g1b g2W g2b c1W c1b (ix2 p d)
      = Cert.Spec.hid H (S1 H w) (M1 H x z w psiW psib phiW phib g1W g1b g2W g2b c1W c1b) (row w) (De1 H) p d := by
  rw [val_main_v56_apply, val_main_v55_apply, val_main_v52_apply, isd_col_out1, val_main_call1_v0_apply,
    val_main_call1_cst_apply]
  have e1 : ∀ k : Fin 2048, lidx_main_v52 (ix2 p d) k = ix2 p k := fun k =>
    funext fun a => match a with | ⟨0, _⟩ => rfl | ⟨1, _⟩ => rfl
  have e2 : ∀ k : Fin 2048, ridx_main_v52 (ix2 p d) k = ix2 k d := fun k =>
    funext fun a => match a with | ⟨0, _⟩ => rfl | ⟨1, _⟩ => rfl
  simp only [e1, e2, mn1_apply, Ideal.mulf_def, Ideal.maximumf_def, Ideal.ofBits_def, Cert.Spec.hid, Cert.Spec.zero, S1]

end

end Cert.ReferenceIdeal.Hand

end
-- ==== Proof.RefHead.lean ====
import proofs.«104285_g40587440947829_cont_sun_m_1101_7_alg».proof.Proof.RefConv

noncomputable section

namespace Cert.ReferenceIdeal.Hand

open Idealize.ShloMosaic Idealize.ShloMosaic.ValueIdx
open Cert.ReferenceIdeal Cert.ReferenceIdeal.Read
open Cert.Spec (Arr)

section

variable (x : Arr 10000 128) (z : Arr 10000 16) (H : Arr 10000 2048) (w : Vec 2048)
  (psiW : Arr 128 32) (psib : Vec 32) (phiW : Arr 16 32) (phib : Vec 32)
  (g1W : Arr 64 64) (g1b : Vec 64) (g2W : Arr 64 32) (g2b : Vec 32) (c1W : Arr 32 64) (c1b : Vec 64)
  (c2W : Arr 64 64) (c2b : Vec 64) (hdW : Arr 64 2) (hdb : Vec 2)

theorem aff2_apply (p : Fin 10000) (d : Fin 64) :
    val_main_v60 (F := Ideal) x z H w psiW psib phiW phib g1W g1b g2W g2b c1W c1b c2W c2b (ix2 p d)
      = (∑ k : Fin 64, Cert.Spec.hid H (S1 H w) (M1 H x z w psiW psib phiW phib g1W g1b g2W g2b c1W c1b) (row w) (De1 H) p k * c2W (ix2 k d)) + row c2b (ix2 0 d) := by
  rw [val_main_v60_apply, val_main_v57_apply, val_main_v59_apply, val_main_v58_apply]
  have e1 : ∀ k : Fin 64, lidx_main_v57 (ix2 p d) k = ix2 p k := fun k =>
    funext fun a => match a with | ⟨0, _⟩ => rfl | ⟨1, _⟩ => rfl
  have e2 : ∀ k : Fin 64, ridx_main_v57 (ix2 p d) k = ix2 k d := fun k =>
    funext fun a => match a with | ⟨0, _⟩ => rfl | ⟨1, _⟩ => rfl
  have e3 : idx_main_v58 (idx_main_v59 (ix2 p d)) = ix1 d :=
    funext fun a => match a with | ⟨0, _⟩ => rfl
  simp only [e1, e2, e3, hid1_apply, Ideal.addf_def, row]

theorem m2_apply (q : Fin 2048) (d : Fin 64) :
    val_main_v73 (F := Ideal) x z H w psiW psib phiW phib g1W g1b g2W g2b c1W c1b c2W c2b (ix2 q d)
      = Cert.Spec.m2t H (S1 H w) (M1 H x z w psiW psib phiW phib g1W g1b g2W g2b c1W c1b) (row w) (De1 H) c2W (row c2b) d q := by
  rw [val_main_v73_apply]
  have e1 : ∀ k : Fin 10000, lidx_main_v73 (ix2 q d) k = ix2 q k := fun k =>
    funext fun a => match a with | ⟨0, _⟩ => rfl | ⟨1, _⟩ => rfl
  have e2 : ∀ k : Fin 10000, ridx_main_v73 (ix2 q d) k = ix2 k d := fun k =>
    funext fun a => match a with | ⟨0, _⟩ => rfl | ⟨1, _⟩ => rfl
  simp only [e1, e2, ht2, val_main_v71_apply, aff2_apply, isd_col_in2, Ideal.mulf_def, Cert.Spec.m2t, S1]
  exact Finset.sum_congr rfl fun k _ => mul_comm _ _

theorem mn2_apply (q : Fin 2048) (d : Fin 64) :
    val_main_v79 (F := Ideal) x z H w psiW psib phiW phib g1W g1b g2W g2b c1W c1b c2W c2b (ix2 q d) = Cert.Spec.mn (M2 H x z w psiW psib phiW phib g1W g1b g2W g2b c1W c1b c2W c2b) (row w) (De1 H) q d := by
  rw [val_main_v79_apply, m2_apply, se_col2]
  simp only [Ideal.mulf_def, Cert.Spec.mn, M2]

theorem hid2_apply (p : Fin 10000) (d : Fin 64) :
    val_main_v84 (F := Ideal) x z H w psiW psib phiW phib g1W g1b g2W g2b c1W c1b c2W c2b (ix2 p d)
      = Cert.Spec.hid H (S1 H w) (M2 H x z w psiW psib phiW phib g1W g1b g2W g2b c1W c1b c2W c2b) (row w) (De1 H) p d := by
  rw [val_main_v84_apply, val_main_v83_apply, val_main_v80_apply, isd_col_out2, val_main_call2_v0_apply,
    val_main_call2_cst_apply]
  have e1 : ∀ k : Fin 2048, lidx_main_v80 (ix2 p d) k = ix2 p k := fun k =>
    funext fun a => match a with | ⟨0, _⟩ => rfl | ⟨1, _⟩ => rfl
  have e2 : ∀ k : Fin 2048, ridx_main_v80 (ix2 p d) k = ix2 k d := fun k =>
    funext fun a => match a with | ⟨0, _⟩ => rfl | ⟨1, _⟩ => rfl
  simp only [e1, e2, mn2_apply, Ideal.mulf_def, Ideal.maximumf_def, Ideal.ofBits_def, Cert.Spec.hid, Cert.Spec.zero, S1]

theorem logits_apply (p : Fin 10000) (c : Fin 2) :
    val_main_v88 (F := Ideal) x z H w psiW psib phiW phib g1W g1b g2W g2b c1W c1b c2W c2b hdW hdb (ix2 p c)
      = Cert.Spec.logits H (S1 H w) (M2 H x z w psiW psib phiW phib g1W g1b g2W g2b c1W c1b c2W c2b) (row w) (De1 H) hdW (row hdb) p c := by
  rw [val_main_v88_apply, val_main_v85_apply, val_main_v87_apply, val_main_v86_apply]
  have e1 : ∀ k : Fin 64, lidx_main_v85 (ix2 p c) k = ix2 p k := fun k =>
    funext fun a => match a with | ⟨0, _⟩ => rfl | ⟨1, _⟩ => rfl
  have e2 : ∀ k : Fin 64, ridx_main_v85 (ix2 p c) k = ix2 k c := fun k =>
    funext fun a => match a with | ⟨0, _⟩ => rfl | ⟨1, _⟩ => rfl
  have e3 : idx_main_v86 (idx_main_v87 (ix2 p c)) = ix1 c :=
    funext fun a => match a with | ⟨0, _⟩ => rfl
  simp only [e1, e2, e3, hid2_apply, Ideal.addf_def, Cert.Spec.logits, row]

theorem ref_logits (j : S10000x2.Idx) :
    val_main_v88 (F := Ideal) x z H w psiW psib phiW phib g1W g1b g2W g2b c1W c1b c2W c2b hdW hdb j
      = Cert.Spec.logits H (S1 H w) (M2 H x z w psiW psib phiW phib g1W g1b g2W g2b c1W c1b c2W c2b) (row w) (De1 H) hdW (row hdb) (j 0) (j 1) := by
  obtain ⟨p, c, rfl⟩ : ∃ (p : Fin 10000) (c : Fin 2), j = ix2 p c := ⟨j 0, j 1, eq_ix2 j⟩
  exact logits_apply x z H w psiW psib phiW phib g1W g1b g2W g2b c1W c1b c2W c2b hdW hdb p c

end

end Cert.ReferenceIdeal.Hand

end
-- ==== Proof.lean ====
import proofs.«104285_g40587440947829_cont_sun_m_1101_7_alg».proof.Defs
import proofs.«104285_g40587440947829_cont_sun_m_1101_7_alg».proof.Proof.Gen.Kernel
import proofs.«104285_g40587440947829_cont_sun_m_1101_7_alg».proof.Proof.Gen.KernelIdeal
import proofs.«104285_g40587440947829_cont_sun_m_1101_7_alg».proof.Proof.Gen.ReferenceIdeal
import proofs.«104285_g40587440947829_cont_sun_m_1101_7_alg».proof.Proof.Gen.Pre_finite_inputs
import proofs.«104285_g40587440947829_cont_sun_m_1101_7_alg».proof.Proof.K.Launch
import proofs.«104285_g40587440947829_cont_sun_m_1101_7_alg».proof.Proof.KI.Launch
import proofs.«104285_g40587440947829_cont_sun_m_1101_7_alg».proof.Proof.KI.Compose
import proofs.«104285_g40587440947829_cont_sun_m_1101_7_alg».proof.Proof.RefGen
import proofs.«104285_g40587440947829_cont_sun_m_1101_7_alg».proof.Proof.RefHead

noncomputable section

namespace Cert.Proof

open Idealize.ShloMosaic Idealize.SL.Sem

/-- A frame is a run with the two results dropped. -/
theorem frame_k : Cert.frame_Kernel := fun m ρ _ =>
  (θ_run Cert.Kernel.defs _ _).mono (fun _ h c => (h c).2.2) (Cert.Kernel.Hand.run_results (F := Bits) m ρ)

theorem frame_ki : Cert.frame_KernelIdeal := fun m ρ _ =>
  (θ_run Cert.KernelIdeal.defs _ _).mono (fun _ h c => (h c).2.2) (Cert.KernelIdeal.Hand.run_results (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 3200000 in
open Cert.KernelIdeal Cert.KernelIdeal.Hand Cert.ReferenceIdeal.Hand in
/-- Both runs end at the specification's logits and gate of the launched arguments. -/
theorem algebraic : Cert.algebraic_KernelIdeal_ReferenceIdeal := by
  intro m ρ m' ρ' _ hagree
  refine ⟨_, _, Cert.KernelIdeal.Hand.run_results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · refine (Cert.ReferenceIdeal.Read.val_main_v88_eq m' c).trans ?_
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]
    exact (funext fun j => ref_logits (cp_aX m c) (cp_aZ m c) (cp_aH m c) (cp_aW m c) (cp_aPsiW m c) (cp_aPsib m c) (cp_aPhiW m c) (cp_aPhib m c) (cp_aG1W m c) (cp_aG1b m c) (cp_aG2W m c) (cp_aG2b m c) (cp_aC1W m c) (cp_aC1b m c) (cp_aC2W m c) (cp_aC2b m c) (cp_aHdW m c) (cp_aHdb m c) j).trans (kernel_logits m c).symm
  · refine (Cert.ReferenceIdeal.Read.val_main_v23_eq _ _ _ _ _ _ _ _ _ _).trans ?_
    obtain ⟨h0, h1, h2, h3, h4, h5, h6, h7, h8, h9, h10, h11, h12, h13, h14, h15, h16, h17⟩ := hagree c
    rw [h0, h1, h4, h5, h6, h7, h8, h9, h10, h11]
    exact (funext fun j => ref_gate (cp_aX m c) (cp_aZ m c) (cp_aPsiW m c) (cp_aPsib m c) (cp_aPhiW m c) (cp_aPhib m c) (cp_aG1W m c) (cp_aG1b m c) (cp_aG2W m c) (cp_aG2b m c) j).trans (kernel_gate m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
